-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩
abbrev S12288 : Shape := ⟨1, ![12288]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  reducesTo_S12288x12288_S12288_d1 : S12288x12288.ReducesTo [1] S12288
  bcast_S_S12288 : S_.BroadcastsInDim S12288 (![] : Fin 0 → Fin S12288.rank)
  reducesTo_S12288_S_d0 : S12288.ReducesTo [0] S_

variable [Facts]

def fn_part2 {F : FTy → Type} [FloatOps F] (main_v28 : IVec S_ 1) (main_v31 : FVec F S12288 .f32) (main_v32 : FVec F S12288 .f32) : IVec S_ 1 :=
  let main_v33 : IVec S12288 1 := cmpf .ogt main_v31 main_v32
  let main_c_13 : IVec S_ 1 := constantI S_ 1 1#1
  let main_v34 : IVec S_ 1 := (fun x v => Host.reduce IntOp.andi x v reducesTo_S12288_S_d0 h_S_) main_v33 main_c_13
  let main_v35 : IVec S_ 1 := andi main_v28 main_v34
  main_v35

def fn_part1 {F : FTy → Type} [FloatOps F] (main_arg1 : FVec F S12288x12288 .f32) (main_arg4 : FVec F S16x40 .f32) (main_arg5 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg4
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_cst_10 : FVec F S_ .f32 := constant S_ .f32 0x00000000#32
  let main_v29 : FVec F S12288 .f32 := (fun x v => Host.reduceAdd x v reducesTo_S12288x12288_S12288_d1 h_S_) main_arg1 main_cst_10
  let main_cst_11 : FVec F S_ .f32 := constant S_ .f32 0x3F800000#32
  let main_v30 : FVec F S12288 .f32 := broadcastInDim S12288 ![] bcast_S_S12288 main_cst_11
  let main_v31 : FVec F S12288 .f32 := addf main_v29 main_v30
  let main_cst_12 : FVec F S_ .f32 := constant S_ .f32 0x00000000#32
  let main_v32 : FVec F S12288 .f32 := broadcastInDim S12288 ![] bcast_S_S12288 main_cst_12
  fn_part2 (F := F) main_v28 main_v31 main_v32

def fn {F : FTy → Type} [FloatOps F] (main_arg0 : FVec F S12288x512 .f32) (main_arg1 : FVec F S12288x12288 .f32) (main_arg2 : FVec F S512x16 .f32) (main_arg3 : FVec F S16 .f32) (main_arg4 : FVec F S16x40 .f32) (main_arg5 : FVec F S40 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg4 main_arg5 main_v13 main_v16
-- ==== Kernel.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S12288x1 : Shape := ⟨2, ![12288, 1]⟩
abbrev S2048x1024 : Shape := ⟨2, ![2048, 1024]⟩
abbrev S2048x1 : Shape := ⟨2, ![2048, 1]⟩
abbrev S2048 : Shape := ⟨1, ![2048]⟩
abbrev S12288x16 : Shape := ⟨2, ![12288, 16]⟩
abbrev S2048x512 : Shape := ⟨2, ![2048, 512]⟩
abbrev S2048x16 : Shape := ⟨2, ![2048, 16]⟩
abbrev S1x16 : Shape := ⟨2, ![1, 16]⟩
abbrev S2048x2048 : Shape := ⟨2, ![2048, 2048]⟩
abbrev S12288x40 : Shape := ⟨2, ![12288, 40]⟩
abbrev S2048x40 : Shape := ⟨2, ![2048, 40]⟩
abbrev S1x40 : Shape := ⟨2, ![1, 40]⟩

abbrev nBuf : Space → Nat
  | .hbm => 14
  | .vmem => 41
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S12288x12288, .bf16⟩
  | .hbm, ⟨7, _⟩ => ⟨S12288x1, .f32⟩
  | .hbm, ⟨8, _⟩ => ⟨S12288x16, .f32⟩
  | .hbm, ⟨9, _⟩ => ⟨S1x16, .f32⟩
  | .hbm, ⟨10, _⟩ => ⟨S12288x16, .f32⟩
  | .hbm, ⟨11, _⟩ => ⟨S12288x40, .f32⟩
  | .hbm, ⟨12, _⟩ => ⟨S1x40, .f32⟩
  | .hbm, ⟨13, _⟩ => ⟨S12288x40, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x512, .f32⟩
  | .local _ .vmem, ⟨8, _⟩ => ⟨S2048x512, .f32⟩
  | .local _ .vmem, ⟨9, _⟩ => ⟨S512x16, .f32⟩
  | .local _ .vmem, ⟨10, _⟩ => ⟨S2048x16, .f32⟩
  | .local _ .vmem, ⟨11, _⟩ => ⟨S2048x16, .f32⟩
  | .local _ .vmem, ⟨12, _⟩ => ⟨S2048x2048, .bf16⟩
  | .local _ .vmem, ⟨13, _⟩ => ⟨S2048x2048, .bf16⟩
  | .local _ .vmem, ⟨14, _⟩ => ⟨S2048x16, .f32⟩
  | .local _ .vmem, ⟨15, _⟩ => ⟨S2048x16, .f32⟩
  | .local _ .vmem, ⟨16, _⟩ => ⟨S2048x1, .f32⟩
  | .local _ .vmem, ⟨17, _⟩ => ⟨S2048x1, .f32⟩
  | .local _ .vmem, ⟨18, _⟩ => ⟨S2048x16, .f32⟩
  | .local _ .vmem, ⟨19, _⟩ => ⟨S2048x1, .f32⟩
  | .local _ .vmem, ⟨20, _⟩ => ⟨S1x16, .f32⟩
  | .local _ .vmem, ⟨21, _⟩ => ⟨S2048x16, .f32⟩
  | .local _ .vmem, ⟨22, _⟩ => ⟨S2048x16, .f32⟩
  | .local _ .vmem, ⟨23, _⟩ => ⟨S2048x16, .f32⟩
  | .local _ .vmem, ⟨24, _⟩ => ⟨S2048x16, .f32⟩
  | .local _ .vmem, ⟨25, _⟩ => ⟨S2048x16, .f32⟩
  | .local _ .vmem, ⟨26, _⟩ => ⟨S16x40, .f32⟩
  | .local _ .vmem, ⟨27, _⟩ => ⟨S2048x40, .f32⟩
  | .local _ .vmem, ⟨28, _⟩ => ⟨S2048x40, .f32⟩
  | .local _ .vmem, ⟨29, _⟩ => ⟨S2048x2048, .bf16⟩
  | .local _ .vmem, ⟨30, _⟩ => ⟨S2048x2048, .bf16⟩
  | .local _ .vmem, ⟨31, _⟩ => ⟨S2048x40, .f32⟩
  | .local _ .vmem, ⟨32, _⟩ => ⟨S2048x40, .f32⟩
  | .local _ .vmem, ⟨33, _⟩ => ⟨S2048x1, .f32⟩
  | .local _ .vmem, ⟨34, _⟩ => ⟨S2048x1, .f32⟩
  | .local _ .vmem, ⟨35, _⟩ => ⟨S2048x40, .f32⟩
  | .local _ .vmem, ⟨36, _⟩ => ⟨S2048x1, .f32⟩
  | .local _ .vmem, ⟨37, _⟩ => ⟨S1x40, .f32⟩
  | .local _ .vmem, ⟨38, _⟩ => ⟨S2048x40, .f32⟩
  | .local _ .vmem, ⟨39, _⟩ => ⟨S2048x40, .f32⟩
  | .local _ .vmem, ⟨40, _⟩ => ⟨S2048x40, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37

abbrev nD : Nat := 1
abbrev τ : Topo := Topo.v7x

variable {F : FTy → Type} [FloatOps F]

abbrev grid0 : Pipeline.Grid := ⟨2, ![6, 12], ![false, false]⟩

def k0_cond2 (i : grid0.Coords) : BitVec 1 :=
  let arg1 : BitVec 32 := BitVec.ofNat 32 (i 1).val
  let c11_i32 : BitVec 32 := 11#32
  let v13 : BitVec 1 := Scalar.cmpi .eq arg1 c11_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![6, 6], ![false, false]⟩

def k2_cond2 (i : grid2.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S2048x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

abbrev stage2_4 : Fin 1 → Memref sig .tc .vmem S2048x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2048x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![6, 6], ![false, false]⟩

def k4_cond2 (i : grid4.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_10 : BitVec 32 := 0#32
  let v20 : BitVec 1 := Scalar.cmpi .ne v19 c0_i32_10
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S2048x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, false]

abbrev stage4_4 : Fin 1 → Memref sig .tc .vmem S2048x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, false]

abbrev stage4_5 : Fin 1 → Memref sig .tc .vmem S1x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S2048x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  inb_S2048x512_S2048x512_0_0 : ∀ a, (![0, 0] : Fin 2 → Nat) a + S2048x512.size a ≤ S2048x512.size a
  h_S2048x512 : 0 < S2048x512.numel
  inb_S512x16_S512x16_0_0 : ∀ a, (![0, 0] : Fin 2 → Nat) a + S512x16.size a ≤ S512x16.size a
  h_S512x16 : 0 < S512x16.numel
  inb_S2048x16_S2048x16_0_0 : ∀ a, (![0, 0] : Fin 2 → Nat) a + S2048x16.size a ≤ S2048x16.size a
  h_S2048x16 : 0 < S2048x16.numel
  shapeCasts_S16_S1x16 : S16.ShapeCasts S1x16
  shapeCasts_S2048x16_S2048x16 : S2048x16.ShapeCasts S2048x16
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S2048x1_S2048x16 : S2048x1.Broadcasts S2048x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x40_S16x40_0_0 : ∀ a, (![0, 0] : Fin 2 → Nat) a + S16x40.size a ≤ S16x40.size a
  h_S16x40 : 0 < S16x40.numel
  inb_S2048x40_S2048x40_0_0 : ∀ a, (![0, 0] : Fin 2 → Nat) a + S2048x40.size a ≤ S2048x40.size a
  h_S2048x40 : 0 < S2048x40.numel
  shapeCasts_S40_S1x40 : S40.ShapeCasts S1x40
  shapeCasts_S2048x40_S2048x40 : S2048x40.ShapeCasts S2048x40
  broadcasts_S2048x1_S2048x40 : S2048x1.Broadcasts S2048x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  reduces_S2048x40_S2048 : S2048x40.Reduces [1] S2048
  dot_S2048x512_S512x16_S2048x16_1_0_0_1_n_n_wf : DotDims.WF S2048x512 S512x16 S2048x16 [1] [0] [0] [1] [] []
  dot_S2048x2048_S2048x16_S2048x16_1_0_0_1_n_n_wf : DotDims.WF S2048x2048 S2048x16 S2048x16 [1] [0] [0] [1] [] []
  dot_S2048x16_S16x40_S2048x40_1_0_0_1_n_n_wf : DotDims.WF S2048x16 S16x40 S2048x40 [1] [0] [0] [1] [] []
  dot_S2048x2048_S2048x40_S2048x40_1_0_0_1_n_n_wf : DotDims.WF S2048x2048 S2048x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S12288x12288.size a
  hwx0_0 : ∀ i : grid0.Coords, EltTy.bits .f32 = 32 ∨ (Rect.block (s := S12288x12288) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S12288x12288.size a
  hwx0_1 : ∀ i : grid0.Coords, EltTy.bits .bf16 = 32 ∨ (Rect.block (s := S12288x12288) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S12288x1.size a
  hwx0_2 : ∀ i : grid0.Coords, EltTy.bits .f32 = 32 ∨ (Rect.block (s := S12288x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S12288x512.size a
  hwx1_0 : ∀ i : grid1.Coords, EltTy.bits .f32 = 32 ∨ (Rect.block (s := S12288x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S512x16.size a
  hwx1_1 : ∀ i : grid1.Coords, EltTy.bits .f32 = 32 ∨ (Rect.block (s := S512x16) S512x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x16.size a ≤ S12288x16.size a
  hwx1_2 : ∀ i : grid1.Coords, EltTy.bits .f32 = 32 ∨ (Rect.block (s := S12288x16) S2048x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S12288x12288.size a
  hwx2_0 : ∀ i : grid2.Coords, EltTy.bits .bf16 = 32 ∨ (Rect.block (s := S12288x12288) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x16.size a ≤ S12288x16.size a
  hwx2_1 : ∀ i : grid2.Coords, EltTy.bits .f32 = 32 ∨ (Rect.block (s := S12288x16) S2048x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S12288x1.size a
  hwx2_2 : ∀ i : grid2.Coords, EltTy.bits .f32 = 32 ∨ (Rect.block (s := S12288x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S12288x16.size a
  hwx2_3 : ∀ i : grid2.Coords, EltTy.bits .f32 = 32 ∨ (Rect.block (s := S12288x16) S2048x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S12288x1.size a
  hwx2_4 : ∀ i : grid2.Coords, EltTy.bits .f32 = 32 ∨ (Rect.block (s := S12288x1) S2048x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x16.size a ≤ S12288x16.size a
  hwx2_6 : ∀ i : grid2.Coords, EltTy.bits .f32 = 32 ∨ (Rect.block (s := S12288x16) S2048x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x16.size a ≤ S12288x16.size a
  hwx3_0 : ∀ i : grid3.Coords, EltTy.bits .f32 = 32 ∨ (Rect.block (s := S12288x16) S2048x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x40.size a ≤ S16x40.size a
  hwx3_1 : ∀ i : grid3.Coords, EltTy.bits .f32 = 32 ∨ (Rect.block (s := S16x40) S16x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x40.size a ≤ S12288x40.size a
  hwx3_2 : ∀ i : grid3.Coords, EltTy.bits .f32 = 32 ∨ (Rect.block (s := S12288x40) S2048x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S12288x12288.size a
  hwx4_0 : ∀ i : grid4.Coords, EltTy.bits .bf16 = 32 ∨ (Rect.block (s := S12288x12288) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x40.size a ≤ S12288x40.size a
  hwx4_1 : ∀ i : grid4.Coords, EltTy.bits .f32 = 32 ∨ (Rect.block (s := S12288x40) S2048x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S12288x1.size a
  hwx4_2 : ∀ i : grid4.Coords, EltTy.bits .f32 = 32 ∨ (Rect.block (s := S12288x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2048x40.size a ≤ S12288x40.size a
  hwx4_3 : ∀ i : grid4.Coords, EltTy.bits .f32 = 32 ∨ (Rect.block (s := S12288x40) S2048x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2048x1.size a ≤ S12288x1.size a
  hwx4_4 : ∀ i : grid4.Coords, EltTy.bits .f32 = 32 ∨ (Rect.block (s := S12288x1) S2048x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x40.size a ≤ S1x40.size a
  hwx4_5 : ∀ i : grid4.Coords, EltTy.bits .f32 = 32 ∨ (Rect.block (s := S1x40) S1x40.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x40.size a ≤ S12288x40.size a
  hwx4_6 : ∀ i : grid4.Coords, EltTy.bits .f32 = 32 ∨ (Rect.block (s := S12288x40) S2048x40.size (cc4_transform_6 i) (hinb4_6 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S2048x16_S16x40_S2048x40_1_0_0_1_n_n : DotDims S2048x16 S16x40 S2048x40 where
  lhsContracting := [1]
  rhsContracting := [0]
  lhsNonContracting := [0]
  rhsNonContracting := [1]
  lhsBatch := []
  rhsBatch := []
  wf := dot_S2048x16_S16x40_S2048x40_1_0_0_1_n_n_wf
def dot_S2048x2048_S2048x40_S2048x40_1_0_0_1_n_n : DotDims S2048x2048 S2048x40 S2048x40 where
  lhsContracting := [1]
  rhsContracting := [0]
  lhsNonContracting := [0]
  rhsNonContracting := [1]
  lhsBatch := []
  rhsBatch := []
  wf := dot_S2048x2048_S2048x40_S2048x40_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S2048x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0_1) S2048x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S2048x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v3) S2048x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S2048x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0_0) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2048x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0_1) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v4) S2048x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v0_1) S2048x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v5) S1x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v6) S2048x40.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩
abbrev S12288 : Shape := ⟨1, ![12288]⟩
abbrev S12288x1 : Shape := ⟨2, ![12288, 1]⟩
abbrev S1x12288 : Shape := ⟨2, ![1, 12288]⟩
abbrev S12288x16 : Shape := ⟨2, ![12288, 16]⟩
abbrev S1x16 : Shape := ⟨2, ![1, 16]⟩
abbrev S12288x40 : Shape := ⟨2, ![12288, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S12288x12288, .i32⟩
  | .hbm, ⟨7, _⟩ => ⟨S12288x12288, .i32⟩
  | .hbm, ⟨8, _⟩ => ⟨S_, .i32⟩
  | .hbm, ⟨9, _⟩ => ⟨S12288x12288, .i32⟩
  | .hbm, ⟨10, _⟩ => ⟨S12288x12288, .i32⟩
  | .hbm, ⟨11, _⟩ => ⟨S12288x12288, .i1⟩
  | .hbm, ⟨12, _⟩ => ⟨S12288x12288, .f32⟩
  | .hbm, ⟨13, _⟩ => ⟨S12288x12288, .f32⟩
  | .hbm, ⟨14, _⟩ => ⟨S_, .f32⟩
  | .hbm, ⟨15, _⟩ => ⟨S12288, .f32⟩
  | .hbm, ⟨16, _⟩ => ⟨S12288, .f32⟩
  | .hbm, ⟨17, _⟩ => ⟨S12288x1, .f32⟩
  | .hbm, ⟨18, _⟩ => ⟨S12288x12288, .f32⟩
  | .hbm, ⟨19, _⟩ => ⟨S12288x12288, .f32⟩
  | .hbm, ⟨20, _⟩ => ⟨S1x12288, .f32⟩
  | .hbm, ⟨21, _⟩ => ⟨S12288x12288, .f32⟩
  | .hbm, ⟨22, _⟩ => ⟨S12288x12288, .f32⟩
  | .hbm, ⟨23, _⟩ => ⟨S12288x16, .f32⟩
  | .hbm, ⟨24, _⟩ => ⟨S12288x16, .f32⟩
  | .hbm, ⟨25, _⟩ => ⟨S1x16, .f32⟩
  | .hbm, ⟨26, _⟩ => ⟨S12288x16, .f32⟩
  | .hbm, ⟨27, _⟩ => ⟨S12288x16, .f32⟩
  | .hbm, ⟨28, _⟩ => ⟨S_, .f32⟩
  | .hbm, ⟨29, _⟩ => ⟨S12288x16, .f32⟩
  | .hbm, ⟨30, _⟩ => ⟨S12288x16, .f32⟩
  | .hbm, ⟨31, _⟩ => ⟨S12288x40, .f32⟩
  | .hbm, ⟨32, _⟩ => ⟨S12288x40, .f32⟩
  | .hbm, ⟨33, _⟩ => ⟨S1x40, .f32⟩
  | .hbm, ⟨34, _⟩ => ⟨S12288x40, .f32⟩
  | .hbm, ⟨35, _⟩ => ⟨S12288x40, .f32⟩
  | .hbm, ⟨36, _⟩ => ⟨S_, .f32⟩
  | .hbm, ⟨37, _⟩ => ⟨S12288, .f32⟩
  | .hbm, ⟨38, _⟩ => ⟨S_, .f32⟩
  | .hbm, ⟨39, _⟩ => ⟨S12288, .f32⟩
  | .hbm, ⟨40, _⟩ => ⟨S12288, .f32⟩
  | .hbm, ⟨41, _⟩ => ⟨S12288x1, .f32⟩
  | .hbm, ⟨42, _⟩ => ⟨S12288x40, .f32⟩
  | .hbm, ⟨43, _⟩ => ⟨S12288x40, .f32⟩
  | .hbm, ⟨44, _⟩ => ⟨S12288x40, .f32⟩
  | .hbm, ⟨45, _⟩ => ⟨S_, .f32⟩
  | .hbm, ⟨46, _⟩ => ⟨S12288, .f32⟩
  | .hbm, ⟨47, _⟩ => ⟨S12288x1, .f32⟩
  | .hbm, ⟨48, _⟩ => ⟨S12288x1, .f32⟩
  | .hbm, ⟨49, _⟩ => ⟨S12288x40, .f32⟩
  | .hbm, ⟨50, _⟩ => ⟨S12288x40, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v26 : Ref sig .tc := ⟨.hbm, 50, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  bcast_S_S12288x16 : S_.BroadcastsInDim S12288x16 (![] : Fin 0 → Fin S12288x16.rank)
  bcast_S40_S1x40_1 : S40.BroadcastsInDim S1x40 (![1] : Fin 1 → Fin S1x40.rank)
  bcast_S1x40_S12288x40_0_1 : S1x40.BroadcastsInDim S12288x40 (![0, 1] : Fin 2 → Fin S12288x40.rank)
  reducesTo_S12288x40_S12288_d1 : S12288x40.ReducesTo [1] S12288
  bcast_S_S12288 : S_.BroadcastsInDim S12288 (![] : Fin 0 → Fin S12288.rank)
  bcast_S12288x1_S12288x40_0_1 : S12288x1.BroadcastsInDim S12288x40 (![0, 1] : Fin 2 → Fin S12288x40.rank)
  dot_S12288x512_S512x16_S12288x16_1_0_0_1_n_n_wf : DotDims.WF S12288x512 S512x16 S12288x16 [1] [0] [0] [1] [] []
  dot_S12288x12288_S12288x16_S12288x16_1_0_0_1_n_n_wf : DotDims.WF S12288x12288 S12288x16 S12288x16 [1] [0] [0] [1] [] []
  dot_S12288x16_S16x40_S12288x40_1_0_0_1_n_n_wf : DotDims.WF S12288x16 S16x40 S12288x40 [1] [0] [0] [1] [] []
  dot_S12288x12288_S12288x40_S12288x40_1_0_0_1_n_n_wf : DotDims.WF S12288x12288 S12288x40 S12288x40 [1] [0] [0] [1] [] []

variable [Facts₀]

def dot_S12288x512_S512x16_S12288x16_1_0_0_1_n_n : DotDims S12288x512 S512x16 S12288x16 where
  lhsContracting := [1]
  rhsContracting := [0]
  lhsNonContracting := [0]
  rhsNonContracting := [1]
  lhsBatch := []
  rhsBatch := []
  wf := dot_S12288x512_S512x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf
def dot_S12288x16_S16x40_S12288x40_1_0_0_1_n_n : DotDims S12288x16 S16x40 S12288x40 where
  lhsContracting := [1]
  rhsContracting := [0]
  lhsNonContracting := [0]
  rhsNonContracting := [1]
  lhsBatch := []
  rhsBatch := []
  wf := dot_S12288x16_S16x40_S12288x40_1_0_0_1_n_n_wf
def dot_S12288x12288_S12288x40_S12288x40_1_0_0_1_n_n : DotDims S12288x12288 S12288x40 S12288x40 where
  lhsContracting := [1]
  rhsContracting := [0]
  lhsNonContracting := [0]
  rhsNonContracting := [1]
  lhsBatch := []
  rhsBatch := []
  wf := dot_S12288x12288_S12288x40_S12288x40_1_0_0_1_n_n_wf

class Facts : Prop extends Facts₀ where

variable [Facts]
-- ==== Proof.SameText.lean ====
import proofs.«111342_j55946243997874_2_alg».proof.Kernel
import proofs.«111342_j55946243997874_2_alg».proof.KernelIdeal

noncomputable section

namespace Cert.Proof.Parts

open Idealize.ShloMosaic Idealize.SL.Sem

open Lean Elab Tactic Meta in
/-- Closes `a = b` by `Eq.refl a`; that `b` unfolds to the same term is left to the kernel. -/
elab "kernel_rfl" : tactic => do
  let g ← getMainGoal
  let some (_, a, _) := (← instantiateMVars (← g.getType)).eq? | throwError "kernel_rfl: the goal is not an equation"
  g.assign (← mkEqRefl a)

/-- The idealization rewrote nothing: the two printed programs are one text under two names, so their body
    tables unfold to the same term at every float instance. -/
theorem defs_same [Cert.Kernel.Facts] [Cert.KernelIdeal.Facts] {F : FTy → Type} [FloatOps F] :
    Cert.Kernel.defs (F := F) = Cert.KernelIdeal.defs (F := F) := by kernel_rfl

end Cert.Proof.Parts

end
-- ==== Proof.KI.Region0.lean ====
import proofs.«111342_j55946243997874_2_alg».proof.Proof.Gen.KernelIdeal.Launch
import proofs.«111342_j55946243997874_2_alg».proof.Proof.Gen.KernelIdeal.Skeleton
import proofs.«111342_j55946243997874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1

theorem hcond0_1 : ∀ t : Fin cfg0.N, cond0_1 (grid0.coords t) ↔ t.val % 12 = 11 :=
  (by decide +kernel : ∀ t : Fin grid0.N, cond0_1 (grid0.coords t) ↔ t.val % 12 = 11)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_2 : ∀ t : Fin cfg0.N, cond0_1 (grid0.coords t) → cfg0.idle 2 (grid0.coords t) = false := by decide +kernel

abbrev VO0_1 : View sig .tc .vmem S2048x1024 .bf16 := (Memref.whole cc0_stg1_0 : Memref sig .tc .vmem S2048x1024 .bf16).view
abbrev VO0_2 : View sig .tc .vmem S2048x1 .f32 := (Memref.whole cc0_stg2_0 : Memref sig .tc .vmem S2048x1 .f32).view

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)

abbrev scM0_0 : Memref sig .tc .vmem S2048x1 .f32 := Memref.whole cc0_scratch0

abbrev VS0_0 : View sig .tc .vmem S2048x1 .f32 := scM0_0.view

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

variable (c : Dev nD) (i : grid0.Coords) (arg2 : Memref sig .tc .vmem S2048x1024 .f32) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole)

set_option maxHeartbeats 1000000 in

noncomputable def kernelRun0_A (hc0 : cond0_0 i) (hc1 : ¬cond0_1 i)
    (x0 : Vec F S2048x1024 .f32) :
    Σ' (L1 : List (View.Piece (Elt F) S2048x1024 .bf16)), { LS0 : List (View.Piece (Elt F) S2048x1 .f32) //
      ∀ (xi2 : Vec F S2048x1 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__degree_cast_kernel i arg2 harg2 arg3 harg3 arg4 harg4 arg5 harg5) K } := by
  refine ⟨?_, ?_, fun xi2 E K => ?run⟩
  case run =>
    simp only [cc0__degree_cast_kernel_eq_skeleton]; unfold cc0__degree_cast_kernel_skel
    unfold owns
    iintro ⟨⟨%f0, %hf0, H0⟩, ⟨%d1, %f1, -, H1⟩, ⟨%f2, %hf2, H2⟩, ⟨%ds0, %fs0, -, HS0⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS0

set_option maxHeartbeats 1000000 in

noncomputable def kernelRun0_B (hc0 : ¬cond0_0 i) (hc1 : ¬cond0_1 i)
    (x0 : Vec F S2048x1024 .f32) (xs0 : Vec F S2048x1 .f32) :
    Σ' (L1 : List (View.Piece (Elt F) S2048x1024 .bf16)), { LS0 : List (View.Piece (Elt F) S2048x1 .f32) //
      ∀ (xi2 : Vec F S2048x1 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__degree_cast_kernel i arg2 harg2 arg3 harg3 arg4 harg4 arg5 harg5) K } := by
  refine ⟨?_, ?_, fun xi2 E K => ?run⟩
  case run =>
    simp only [cc0__degree_cast_kernel_eq_skeleton]; unfold cc0__degree_cast_kernel_skel
    unfold owns
    iintro ⟨⟨%f0, %hf0, H0⟩, ⟨%d1, %f1, -, H1⟩, ⟨%f2, %hf2, H2⟩, ⟨%fs0, %hfs0, HS0⟩, Hk⟩
    obtain rfl := harg2.eq_unread hf0; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS0

set_option maxHeartbeats 1000000 in

noncomputable def kernelRun0_C (hc0 : ¬cond0_0 i) (hc1 : cond0_1 i)
    (x0 : Vec F S2048x1024 .f32) (xs0 : Vec F S2048x1 .f32) :
    Σ' (L1 : List (View.Piece (Elt F) S2048x1024 .bf16)) (L2 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__degree_cast_kernel i arg2 harg2 arg3 harg3 arg4 harg4 arg5 harg5) K } := by
  refine ⟨?_, ?_, ?_, fun E K => ?run⟩
  case run =>
    simp only [cc0__degree_cast_kernel_eq_skeleton]; unfold cc0__degree_cast_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

def rest0_2 : Vec F S2048x1 .f32 := VO0_2.read (Elt F) VO0_2.junk

theorem cover0_A_1 (hc0 : cond0_0 i) (hc1 : ¬cond0_1 i) (x0 : Vec F S2048x1024 .f32) (y : S2048x1024.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S2048x1024.size (by sl_kernel_rfl) y

def out0_A_1 (hc0 : cond0_0 i) (hc1 : ¬cond0_1 i) (x0 : Vec F S2048x1024 .f32) : Vec F S2048x1024 .bf16 :=
  VO0_1.read (Elt F) (VO0_1.writes (Elt F) VO0_1.junk (kernelRun0_A c i arg2 harg2 arg3 harg3 arg4 harg4 arg5 harg5 hc0 hc1 x0).1)

theorem scover0_A_0 (hc0 : cond0_0 i) (hc1 : ¬cond0_1 i) (x0 : Vec F S2048x1024 .f32) (y : S2048x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S2048x1.size (by sl_kernel_rfl) y

def sout0_A_0 (hc0 : cond0_0 i) (hc1 : ¬cond0_1 i) (x0 : Vec F S2048x1024 .f32) : Vec F S2048x1 .f32 :=
  VS0_0.read (Elt F) (VS0_0.writes (Elt F) VS0_0.junk (kernelRun0_A c i arg2 harg2 arg3 harg3 arg4 harg4 arg5 harg5 hc0 hc1 x0).2.1)

theorem cover0_B_1 (hc0 : ¬cond0_0 i) (hc1 : ¬cond0_1 i) (x0 : Vec F S2048x1024 .f32) (xs0 : Vec F S2048x1 .f32) (y : S2048x1024.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S2048x1024.size (by sl_kernel_rfl) y

def out0_B_1 (hc0 : ¬cond0_0 i) (hc1 : ¬cond0_1 i) (x0 : Vec F S2048x1024 .f32) (xs0 : Vec F S2048x1 .f32) : Vec F S2048x1024 .bf16 :=
  VO0_1.read (Elt F) (VO0_1.writes (Elt F) VO0_1.junk (kernelRun0_B c i arg2 harg2 arg3 harg3 arg4 harg4 arg5 harg5 hc0 hc1 x0 xs0).1)

theorem scover0_B_0 (hc0 : ¬cond0_0 i) (hc1 : ¬cond0_1 i) (x0 : Vec F S2048x1024 .f32) (xs0 : Vec F S2048x1 .f32) (y : S2048x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S2048x1.size (by sl_kernel_rfl) y

def sout0_B_0 (hc0 : ¬cond0_0 i) (hc1 : ¬cond0_1 i) (x0 : Vec F S2048x1024 .f32) (xs0 : Vec F S2048x1 .f32) : Vec F S2048x1 .f32 :=
  VS0_0.read (Elt F) (VS0_0.writes (Elt F) VS0_0.junk (kernelRun0_B c i arg2 harg2 arg3 harg3 arg4 harg4 arg5 harg5 hc0 hc1 x0 xs0).2.1)

theorem cover0_C_1 (hc0 : ¬cond0_0 i) (hc1 : cond0_1 i) (x0 : Vec F S2048x1024 .f32) (xs0 : Vec F S2048x1 .f32) (y : S2048x1024.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S2048x1024.size (by sl_kernel_rfl) y

def out0_C_1 (hc0 : ¬cond0_0 i) (hc1 : cond0_1 i) (x0 : Vec F S2048x1024 .f32) (xs0 : Vec F S2048x1 .f32) : Vec F S2048x1024 .bf16 :=
  VO0_1.read (Elt F) (VO0_1.writes (Elt F) VO0_1.junk (kernelRun0_C c i arg2 harg2 arg3 harg3 arg4 harg4 arg5 harg5 hc0 hc1 x0 xs0).1)

theorem cover0_C_2 (hc0 : ¬cond0_0 i) (hc1 : cond0_1 i) (x0 : Vec F S2048x1024 .f32) (xs0 : Vec F S2048x1 .f32) (y : S2048x1.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S2048x1.size (by sl_kernel_rfl) y

def out0_C_2 (hc0 : ¬cond0_0 i) (hc1 : cond0_1 i) (x0 : Vec F S2048x1024 .f32) (xs0 : Vec F S2048x1 .f32) : Vec F S2048x1 .f32 :=
  VO0_2.read (Elt F) (VO0_2.writes (Elt F) VO0_2.junk (kernelRun0_C c i arg2 harg2 arg3 harg3 arg4 harg4 arg5 harg5 hc0 hc1 x0 xs0).2.1)

theorem scover0_C_0 (hc0 : ¬cond0_0 i) (hc1 : cond0_1 i) (x0 : Vec F S2048x1024 .f32) (xs0 : Vec F S2048x1 .f32) (y : S2048x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S2048x1.size (by sl_kernel_rfl) y

def sout0_C_0 (hc0 : ¬cond0_0 i) (hc1 : cond0_1 i) (x0 : Vec F S2048x1024 .f32) (xs0 : Vec F S2048x1 .f32) : Vec F S2048x1 .f32 :=
  VS0_0.read (Elt F) (VS0_0.writes (Elt F) VS0_0.junk (kernelRun0_C c i arg2 harg2 arg3 harg3 arg4 harg4 arg5 harg5 hc0 hc1 x0 xs0).2.2.1)

theorem out0_A_1_eq (hc0 : cond0_0 i) (hc1 : ¬cond0_1 i) (x0 : Vec F S2048x1024 .f32) : out0_A_1 c i arg2 harg2 arg3 harg3 arg4 harg4 arg5 harg5 hc0 hc1 x0 = k0_pay3 x0 := by
  have hz : (![0, 0] : Fin 2 → ℕ) = fun _ => 0 := by funext a; fin_cases a <;> rfl
  unfold out0_A_1
  rw [View.read_writes_eq_canon _ _ _ (cover0_A_1 c i arg2 harg2 arg3 harg3 arg4 harg4 arg5 harg5 hc0 hc1 x0)]
  unfold kernelRun0_A
  dsimp only
  sl_unfold_words
  rw [View.canon_unit_zero hz]
  simp only [View.readAt_eq_ld, harg2.read_unread, harg5.read_unread, View.ld_unit_zero (S := S2048x1024) hz, View.ld_unit_zero (S := S2048x1) hz]

theorem sout0_A_0_eq (hc0 : cond0_0 i) (hc1 : ¬cond0_1 i) (x0 : Vec F S2048x1024 .f32) : sout0_A_0 c i arg2 harg2 arg3 harg3 arg4 harg4 arg5 harg5 hc0 hc1 x0 = k0_pay2 x0 k0_pay1 := by
  have hz : (![0, 0] : Fin 2 → ℕ) = fun _ => 0 := by funext a; fin_cases a <;> rfl
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S2048x1) hz, View.readCov_unit_zero (S := S2048x1) _ hz]
  simp only [View.readAt_eq_ld, harg2.read_unread, harg5.read_unread, View.ld_unit_zero (S := S2048x1024) hz, View.ld_unit_zero (S := S2048x1) hz]

theorem out0_B_1_eq (hc0 : ¬cond0_0 i) (hc1 : ¬cond0_1 i) (x0 : Vec F S2048x1024 .f32) (xs0 : Vec F S2048x1 .f32) : out0_B_1 c i arg2 harg2 arg3 harg3 arg4 harg4 arg5 harg5 hc0 hc1 x0 xs0 = k0_pay3 x0 := by
  have hz : (![0, 0] : Fin 2 → ℕ) = fun _ => 0 := by funext a; fin_cases a <;> rfl
  unfold out0_B_1
  rw [View.read_writes_eq_canon _ _ _ (cover0_B_1 c i arg2 harg2 arg3 harg3 arg4 harg4 arg5 harg5 hc0 hc1 x0 xs0)]
  unfold kernelRun0_B
  dsimp only
  sl_unfold_words
  rw [View.canon_unit_zero hz]
  simp only [View.readAt_eq_ld, harg2.read_unread, harg5.read_unread, View.ld_unit_zero (S := S2048x1024) hz, View.ld_unit_zero (S := S2048x1) hz]

theorem sout0_B_0_eq (hc0 : ¬cond0_0 i) (hc1 : ¬cond0_1 i) (x0 : Vec F S2048x1024 .f32) (xs0 : Vec F S2048x1 .f32) : sout0_B_0 c i arg2 harg2 arg3 harg3 arg4 harg4 arg5 harg5 hc0 hc1 x0 xs0 = k0_pay2 x0 xs0 := by
  have hz : (![0, 0] : Fin 2 → ℕ) = fun _ => 0 := by funext a; fin_cases a <;> rfl
  unfold sout0_B_0
  rw [View.read_writes_eq_canon _ _ _ (scover0_B_0 c i arg2 harg2 arg3 harg3 arg4 harg4 arg5 harg5 hc0 hc1 x0 xs0)]
  unfold kernelRun0_B
  dsimp only
  sl_unfold_words
  rw [View.canon_unit_zero hz]
  simp only [View.readAt_eq_ld, harg2.read_unread, harg5.read_unread, View.ld_unit_zero (S := S2048x1024) hz, View.ld_unit_zero (S := S2048x1) hz]

theorem out0_C_1_eq (hc0 : ¬cond0_0 i) (hc1 : cond0_1 i) (x0 : Vec F S2048x1024 .f32) (xs0 : Vec F S2048x1 .f32) : out0_C_1 c i arg2 harg2 arg3 harg3 arg4 harg4 arg5 harg5 hc0 hc1 x0 xs0 = k0_pay3 x0 := by
  have hz : (![0, 0] : Fin 2 → ℕ) = fun _ => 0 := by funext a; fin_cases a <;> rfl
  unfold out0_C_1
  rw [View.read_writes_eq_canon _ _ _ (cover0_C_1 c i arg2 harg2 arg3 harg3 arg4 harg4 arg5 harg5 hc0 hc1 x0 xs0)]
  unfold kernelRun0_C
  dsimp only
  sl_unfold_words
  rw [View.canon_unit_zero hz]
  simp only [View.readAt_eq_ld, harg2.read_unread, harg5.read_unread, View.ld_unit_zero (S := S2048x1024) hz, View.ld_unit_zero (S := S2048x1) hz]

theorem sout0_C_0_eq (hc0 : ¬cond0_0 i) (hc1 : cond0_1 i) (x0 : Vec F S2048x1024 .f32) (xs0 : Vec F S2048x1 .f32) : sout0_C_0 c i arg2 harg2 arg3 harg3 arg4 harg4 arg5 harg5 hc0 hc1 x0 xs0 = k0_pay2 x0 xs0 := by
  have hz : (![0, 0] : Fin 2 → ℕ) = fun _ => 0 := by funext a; fin_cases a <;> rfl
  unfold sout0_C_0
  rw [View.read_writes_eq_canon _ _ _ (scover0_C_0 c i arg2 harg2 arg3 harg3 arg4 harg4 arg5 harg5 hc0 hc1 x0 xs0)]
  unfold kernelRun0_C
  dsimp only
  sl_unfold_words
  rw [View.canon_unit_zero hz]
  simp only [View.readAt_eq_ld, harg2.read_unread, harg5.read_unread, View.ld_unit_zero (S := S2048x1024) hz, View.ld_unit_zero (S := S2048x1) hz]

theorem out0_C_2_eq (hc0 : ¬cond0_0 i) (hc1 : cond0_1 i) (x0 : Vec F S2048x1024 .f32) (xs0 : Vec F S2048x1 .f32) : out0_C_2 c i arg2 harg2 arg3 harg3 arg4 harg4 arg5 harg5 hc0 hc1 x0 xs0 = k0_pay4 (k0_pay2 x0 xs0) := by
  have hz : (![0, 0] : Fin 2 → ℕ) = fun _ => 0 := by funext a; fin_cases a <;> rfl
  unfold out0_C_2
  rw [View.read_writes_eq_canon _ _ _ (cover0_C_2 c i arg2 harg2 arg3 harg3 arg4 harg4 arg5 harg5 hc0 hc1 x0 xs0)]
  unfold kernelRun0_C
  dsimp only
  sl_unfold_words
  rw [View.canon_unit_zero hz]
  simp only [View.readCov_unit_zero (S := S2048x1) _ hz, View.readAt_eq_ld, harg2.read_unread, harg5.read_unread, View.ld_unit_zero (S := S2048x1024) hz, View.ld_unit_zero (S := S2048x1) hz]

theorem ncond0_1_of (t : Fin cfg0.N) (h0 : t.val % 12 = 0) : ¬cond0_1 (grid0.coords t) :=
  fun h => by have h' := (hcond0_1 t).mp h; omega

def outsAt0 (c : Dev nD) : (n : ℕ) → n < cfg0.N → Vec F S2048x1024 .bf16 × Vec F S2048x1 .f32 × Vec F S2048x1 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (ncond0_1_of ⟨0, hn⟩ (Nat.zero_mod _)) (iblk0 V c 0 ⟨0, hn⟩), rest0_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (ncond0_1_of ⟨0, hn⟩ (Nat.zero_mod _)) (iblk0 V c 0 ⟨0, hn⟩))
  | n + 1, hn =>
    if h0 : (n + 1) % 12 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (ncond0_1_of ⟨n + 1, hn⟩ h0) (iblk0 V c 0 ⟨n + 1, hn⟩), rest0_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (ncond0_1_of ⟨n + 1, hn⟩ h0) (iblk0 V c 0 ⟨n + 1, hn⟩))
    else if h1 : (n + 1) % 12 = 11 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, rest0_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

theorem outsAt0_A (c : Dev nD) (t : Fin cfg0.N) (h0 : t.val % 12 = 0) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (ncond0_1_of t h0) (iblk0 V c 0 t), rest0_2, sout0_A_0 c (grid0.coords t) (ms0_0 t) (hs0_0 t) (ms0_1 t) (hs0_1 t) (ms0_2 t) (hs0_2 t) scM0_0 (Memref.isWhole_whole _) ((hcond0_0 t).mpr h0) (ncond0_1_of t h0) (iblk0 V c 0 t)) := by
  obtain ⟨n, hn⟩ := t
  cases n with
  | zero => exact rfl
  | succ n => exact (dif_pos h0).trans rfl

theorem outsAt0_B (c : Dev nD) (t : Fin cfg0.N) (h0 : ¬t.val % 12 = 0) (h1 : ¬t.val % 12 = 11) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, rest0_2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 12 = 0) (h1 : t.val % 12 = 11) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]

theorem after0_1 (c : Dev nD) (t : Fin cfg0.N) : (dat0 V c).after 1 t = (outsAt0 V c t.val t.isLt).1 := by dsimp only [dat0]

theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare ((outsAt0 V c t.val t.isLt).1) := by
  unfold Dat.leavesExact; rw [liveAt0_1 t, after0_1]

theorem leaves0_2_rest (c : Dev nD) (t : Fin cfg0.N) (h : ¬cond0_1 (grid0.coords t)) :
    (dat0 V c).leavesExact 2 t = iprop(∃ d, owns (c : Thread nD τ) (ms0_2 t) fullShare ((dat0 V c).before 2 t d)) :=
  Dat.leavesExact_idle (dat0 V c) 2 t (idleAt0_2 t h) (noFlush0_2 t h)
theorem leaves0_2_last (c : Dev nD) (t : Fin cfg0.N) (h : cond0_1 (grid0.coords t)) :
    (dat0 V c).leavesExact 2 t = owns (c : Thread nD τ) (ms0_2 t) fullShare ((outsAt0 V c t.val t.isLt).2.1) := by
  unfold Dat.leavesExact; rw [liveAt0_2 t h, after0_2]

set_option maxHeartbeats 4000000 in

theorem sound_body0_A (c : Dev nD) (t : Fin cfg0.N) (h0 : t.val % 12 = 0) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_rest V c t (ncond0_1_of t h0)]
  rw [outsAt0_A V c t h0]
  unfold out0_A_1 sout0_A_0; (try dsimp only)
  have hentry : (dat0 V c).Φ t.castSucc ⊢ iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
    rw [PhiS0_castSucc V c t]
    by_cases hz : t.val = 0
    · rw [PhiS0_zero V c _ _ hz, PhiA0_eq]
    · rw [PhiS0_pos V c _ _ hz]
      iintro ⟨⟨HS0, HR⟩, Hg⟩
      isplitl [HS0 HR]
      · isplitl [HS0]; · iexists _; iexact HS0
        iexact HR
      iexact Hg
  iintro ⟨HΦ, Ho, ⟨%d0, H0⟩, ⟨%d1, H1⟩, ⟨%d2, H2⟩⟩
  ihave HΦ' := hentry $$ HΦ
  icases HΦ' with ⟨⟨HS0, HR⟩, Hg⟩
  iapply ((kernelRun0_A c (grid0.coords t) _ _ _ _ _ _ _ _ ((hcond0_0 t).mpr h0) (ncond0_1_of t h0) (iblk0 V c 0 t)).2.2 _ Set.univ _)
  isplitl [H0]; · iexact H0
  isplitl [H1]; · iexists _; iexact H1
  isplitl [H2]; · iexact H2
  isplitl [HS0]; · iexact HS0
  iintro ⟨H0, ⟨%e1, H1⟩, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_A_0 c _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _)
  iexists _; iexact H2

set_option maxHeartbeats 4000000 in

theorem sound_body0_B (c : Dev nD) (t : Fin cfg0.N) (h0 : ¬t.val % 12 = 0) (h1 : ¬t.val % 12 = 11) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_rest V c t (fun h => h1 ((hcond0_1 t).mp h))]
  rw [outsAt0_B V c t h0 h1]
  unfold out0_B_1 sout0_B_0; (try dsimp only)
  have hz : t.val ≠ 0 := by omega
  rw [PhiS0_castSucc V c t, PhiS0_pos V c _ _ hz]
  iintro ⟨⟨⟨HS0, HR⟩, Hg⟩, Ho, ⟨%d0, H0⟩, ⟨%d1, H1⟩, ⟨%d2, H2⟩⟩
  iapply ((kernelRun0_B c (grid0.coords t) _ _ _ _ _ _ _ _ (fun h => h0 ((hcond0_0 t).mp h)) (fun h => h1 ((hcond0_1 t).mp h)) (iblk0 V c 0 t) _).2.2 _ Set.univ _)
  isplitl [H0]; · iexact H0
  isplitl [H1]; · iexists _; iexact H1
  isplitl [H2]; · iexact H2
  isplitl [HS0]; · iexact HS0
  iintro ⟨H0, ⟨%e1, H1⟩, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_B_0 c _ _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_of_cover _ _ _ _ _ (cover0_B_1 c _ _ _ _ _ _ _ _ _ _ _ _ _)
  iexists _; iexact H2

set_option maxHeartbeats 4000000 in

theorem sound_body0_C (c : Dev nD) (t : Fin cfg0.N) (h0 : ¬t.val % 12 = 0) (h1 : t.val % 12 = 11) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_last V c t ((hcond0_1 t).mpr h1)]
  rw [outsAt0_C V c t h0 h1]
  unfold out0_C_1 out0_C_2 sout0_C_0; (try dsimp only)
  have hz : t.val ≠ 0 := by omega
  rw [PhiS0_castSucc V c t, PhiS0_pos V c _ _ hz]
  iintro ⟨⟨⟨HS0, HR⟩, Hg⟩, Ho, ⟨%d0, H0⟩, ⟨%d1, H1⟩, ⟨%d2, H2⟩⟩
  iapply ((kernelRun0_C c (grid0.coords t) _ _ _ _ _ _ _ _ (fun h => h0 ((hcond0_0 t).mp h)) ((hcond0_1 t).mpr h1) (iblk0 V c 0 t) _).2.2.2 Set.univ _)
  isplitl [H0]; · iexact H0
  isplitl [H1]; · iexists _; iexact H1
  isplitl [H2]; · iexists _; iexact H2
  isplitl [HS0]; · iexact HS0
  iintro ⟨H0, ⟨%e1, H1⟩, ⟨%e2, H2⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_C_0 c _ _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_of_cover _ _ _ _ _ (cover0_C_1 c _ _ _ _ _ _ _ _ _ _ _ _ _)
  unfold owns; iexists _; isplitr
  swap; · iexact H2
  ipureintro; exact View.read_writes_of_cover _ _ _ _ _ (cover0_C_2 c _ _ _ _ _ _ _ _ _ _ _ _ _)

theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 12 = 0
  · exact sound_body0_A V c t h0
  · by_cases h1 : t.val % 12 = 11
    · exact sound_body0_C V c t h0 h1
    · exact sound_body0_B V c t h0 h1

theorem body_obligation0 (c : Dev nD) : BodyObligation (dat0 (F := F) V c) (defs₀ (F := F)) Variants.none () Set.univ := fun t => by
  rw [bigSep_W0, bigSep_W0]
  exact sound_body0 V c t

theorem q_eq0 (c : Dev nD) (w : Fin cfg0.W) : (dat0 V c).q w = fullShare := rfl
theorem owed_eq0 (c : Dev nD) (t : Fin (cfg0.N + 1)) : (dat0 V c).owed t = 0 := rfl

theorem recorded_eq0 (c : Dev nD) (t : Fin (cfg0.N + 1)) : (dat0 V c).recorded t = Set.univ := rfl

theorem hin0 (c : Dev nD) : Pipeline.ΦA spec0 c ⊢ (dat0 (F := F) V c).Φ 0 := by
  rw [show (dat0 V c).Φ 0 = PhiS0 V c 0 (Nat.zero_le _) from rfl, PhiS0_zero V c 0 _ rfl]

theorem hout0 (c : Dev nD) : (dat0 (F := F) V c).Φ (Fin.last cfg0.N) ⊢ Pipeline.ΦA spec0 c := by
  have hN : (Fin.last cfg0.N).val ≠ 0 := by rw [Fin.val_last]; have : cfg0.N = 72 := N_0; omega
  rw [show (dat0 V c).Φ (Fin.last cfg0.N) = PhiS0 V c (Fin.last cfg0.N).val (Nat.le_of_lt_succ (Fin.last cfg0.N).isLt) from rfl, PhiS0_pos V c _ _ hN, PhiA0_eq]
  iintro ⟨⟨HS0, HR⟩, Hg⟩
  isplitl [HS0 HR]
  · isplitl [HS0]; · iexists _; iexact HS0
    iexact HR
  iexact Hg

end Cert.KernelIdeal.Hand

end
-- ==== Proof.KI.Region1.lean ====
import proofs.«111342_j55946243997874_2_alg».proof.Proof.Gen.KernelIdeal.Launch
import proofs.«111342_j55946243997874_2_alg».proof.Proof.Gen.KernelIdeal.Skeleton
import proofs.«111342_j55946243997874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2048x512 := Rect.unit (s := S2048x512) ![0, 0] S2048x512.size inb_S2048x512_S2048x512_0_0
abbrev r1_w : Rect S512x16 := Rect.unit (s := S512x16) ![0, 0] S512x16.size inb_S512x16_S512x16_0_0
abbrev r1_o : Rect S2048x16 := Rect.unit (s := S2048x16) ![0, 0] S2048x16.size inb_S2048x16_S2048x16_0_0

def out1_2 (x0 : Vec F S2048x512 .f32) (x1 : Vec F S512x16 .f32) : Vec F S2048x16 .f32 :=
  View.canon [⟨r1_o, k1_pay1 (View.ld x0 r1_x) (View.ld x1 r1_w)⟩]

theorem cover1_2 (p0 : Vec F S2048x16 .f32) (y : S2048x16.Idx) :
    ∃ pc ∈ ([⟨r1_o, p0⟩] : List (View.Piece (Elt F) S2048x16 .f32)), y ∈ pc.1.set :=
  View.cover_of_tiled [⟨r1_o, p0⟩] S2048x16.size (by rfl) y

set_option maxHeartbeats 1000000 in

theorem sound_kernel1 (c : Dev nD) (E : Set ℕ) (i : grid1.Coords) (arg1 : Memref sig .tc .vmem S2048x512 .f32) (harg1 : arg1.IsWhole)
    (arg2 : Memref sig .tc .vmem S512x16 .f32) (harg2 : arg2.IsWhole) (arg3 : Memref sig .tc .vmem S2048x16 .f32) (harg3 : arg3.IsWhole)
    (x0 : Vec F S2048x512 .f32) (x1 : Vec F S512x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl

theorem hin1 (c : Dev nD) : Pipeline.ΦA spec1 c ⊢ (dat1 (F := F) V c).Φ 0 := BI.Entails.refl _
theorem hout1 (c : Dev nD) : (dat1 (F := F) V c).Φ (Fin.last cfg1.N) ⊢ Pipeline.ΦA spec1 c := BI.Entails.refl _

end Cert.KernelIdeal.Hand

end
-- ==== Proof.KI.Region2.lean ====
import proofs.«111342_j55946243997874_2_alg».proof.Proof.Gen.KernelIdeal.Launch
import proofs.«111342_j55946243997874_2_alg».proof.Proof.Gen.KernelIdeal.Skeleton
import proofs.«111342_j55946243997874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 6 = 0 :=
  (by decide +kernel : ∀ t : Fin grid2.N, cond2_0 (grid2.coords t) ↔ t.val % 6 = 0)

abbrev cond2_1 (i : grid2.Coords) : Prop := k2_cond2 i = 1#1

theorem hcond2_1 : ∀ t : Fin cfg2.N, cond2_1 (grid2.coords t) ↔ t.val % 6 = 5 :=
  (by decide +kernel : ∀ t : Fin grid2.N, cond2_1 (grid2.coords t) ↔ t.val % 6 = 5)

variable (c : Dev nD) (i : grid2.Coords) (a0 : Memref sig .tc .vmem S2048x2048 .bf16) (w0 : a0.IsWhole) (a1 : Memref sig .tc .vmem S2048x16 .f32) (w1 : a1.IsWhole) (a2 : Memref sig .tc .vmem S2048x1 .f32) (w2 : a2.IsWhole) (a3 : Memref sig .tc .vmem S2048x16 .f32) (w3 : a3.IsWhole) (a4 : Memref sig .tc .vmem S2048x1 .f32) (w4 : a4.IsWhole) (a5 : Memref sig .tc .vmem S1x16 .f32) (w5 : a5.IsWhole) (a6 : Memref sig .tc .vmem S2048x16 .f32) (w6 : a6.IsWhole) (sc : Memref sig .tc .vmem S2048x16 .f32) (wsc : sc.IsWhole)

set_option maxHeartbeats 1000000 in

def kernelRun2_A (hc0 : cond2_0 i) (hc1 : ¬cond2_1 i)
    (x0 : Vec F S2048x2048 .bf16) (x1 : Vec F S2048x16 .f32) (x2 : Vec F S2048x1 .f32) :
    { LS : List (View.Piece (Elt F) S2048x16 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ (∃ d, owns (c : Thread nD τ) sc fullShare d)
            ∗ (iprop(owns (c : Thread nD τ) a0 fullShare x0 ∗ owns (c : Thread nD τ) a1 fullShare x1 ∗ owns (c : Thread nD τ) a2 fullShare x2
                ∗ (∃ f, sc.view.loc (c : Thread nD τ) ↦[sc.view.set]{fullShare} sc.view.writes (Elt F) f LS)) -∗ K ⟨⟩))
          ⊢ wp frame (wpE (defs₀ (F := F)) Variants.none c none) E (cc2_kernel i a0 w0 a1 w1 a2 w2 a3 w3 a4 w4 a5 w5 a6 w6 sc wsc) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds, %fs, -, HS⟩, Hk⟩
    obtain rfl := w0.eq_unread hf0; obtain rfl := w1.eq_unread hf1; obtain rfl := w2.eq_unread hf2
    sl_exec (disch := first | exact hc0 | exact hc1)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    iexists _; iexact HS

set_option maxHeartbeats 1000000 in

def kernelRun2_B (hc0 : ¬cond2_0 i) (hc1 : ¬cond2_1 i)
    (x0 : Vec F S2048x2048 .bf16) (x1 : Vec F S2048x16 .f32) (x2 : Vec F S2048x1 .f32) (xs : Vec F S2048x16 .f32) :
    { LS : List (View.Piece (Elt F) S2048x16 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) sc fullShare xs
            ∗ (iprop(owns (c : Thread nD τ) a0 fullShare x0 ∗ owns (c : Thread nD τ) a1 fullShare x1 ∗ owns (c : Thread nD τ) a2 fullShare x2
                ∗ (∃ f, sc.view.loc (c : Thread nD τ) ↦[sc.view.set]{fullShare} sc.view.writes (Elt F) f LS)) -∗ K ⟨⟩))
          ⊢ wp frame (wpE (defs₀ (F := F)) Variants.none c none) E (cc2_kernel i a0 w0 a1 w1 a2 w2 a3 w3 a4 w4 a5 w5 a6 w6 sc wsc) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs, %hfs, HS⟩, Hk⟩
    obtain rfl := w0.eq_unread hf0; obtain rfl := w1.eq_unread hf1; obtain rfl := w2.eq_unread hf2; obtain rfl := wsc.eq_unread hfs
    sl_exec (disch := first | exact hc0 | exact hc1)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    iexists _; iexact HS

set_option maxHeartbeats 1000000 in

def kernelRun2_C (hc0 : ¬cond2_0 i) (hc1 : cond2_1 i)
    (x0 : Vec F S2048x2048 .bf16) (x1 : Vec F S2048x16 .f32) (x2 : Vec F S2048x1 .f32) (x3 : Vec F S2048x16 .f32) (x4 : Vec F S2048x1 .f32)
    (x5 : Vec F S1x16 .f32) (xs : Vec F S2048x16 .f32) :
    Σ' (LO : List (View.Piece (Elt F) S2048x16 .f32)), { LS : List (View.Piece (Elt F) S2048x16 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ (∃ d, owns (c : Thread nD τ) a6 fullShare d) ∗ owns (c : Thread nD τ) sc fullShare xs
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f LO)
                ∗ (∃ f, sc.view.loc (c : Thread nD τ) ↦[sc.view.set]{fullShare} sc.view.writes (Elt F) f LS)) -∗ K ⟨⟩))
          ⊢ wp frame (wpE (defs₀ (F := F)) Variants.none c none) E (cc2_kernel i a0 w0 a1 w1 a2 w2 a3 w3 a4 w4 a5 w5 a6 w6 sc wsc) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := w0.eq_unread hf0; obtain rfl := w1.eq_unread hf1; obtain rfl := w2.eq_unread hf2; obtain rfl := w3.eq_unread hf3
    obtain rfl := w4.eq_unread hf4; obtain rfl := w5.eq_unread hf5; obtain rfl := wsc.eq_unread hfs
    sl_exec (disch := first | exact hc0 | exact hc1)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]; · iexists _; iexact H6
    iexists _; iexact HS

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel

theorem idleAt2_6 : ∀ t : Fin cfg2.N, ¬cond2_1 (grid2.coords t) → cfg2.idle 6 (grid2.coords t) = true := by decide +kernel

theorem noFlush2_6 : ∀ t : Fin cfg2.N, ¬cond2_1 (grid2.coords t) → (cfg2.win 6).flush t = false := by decide +kernel

theorem liveAt2_6 : ∀ t : Fin cfg2.N, cond2_1 (grid2.coords t) → cfg2.idle 6 (grid2.coords t) = false := by decide +kernel

theorem caseA2 (t : Fin cfg2.N) (h0 : t.val % 6 = 0) : cond2_0 (grid2.coords t) ∧ ¬cond2_1 (grid2.coords t) :=
  ⟨(hcond2_0 t).mpr h0, fun h => by have h' := (hcond2_1 t).mp h; omega⟩

theorem caseB2 (t : Fin cfg2.N) (h0 : ¬t.val % 6 = 0) (h1 : ¬t.val % 6 = 5) : ¬cond2_0 (grid2.coords t) ∧ ¬cond2_1 (grid2.coords t) :=
  ⟨fun h => h0 ((hcond2_0 t).mp h), fun h => h1 ((hcond2_1 t).mp h)⟩

theorem caseC2 (t : Fin cfg2.N) (h1 : t.val % 6 = 5) : ¬cond2_0 (grid2.coords t) ∧ cond2_1 (grid2.coords t) :=
  ⟨fun h => by have h' := (hcond2_0 t).mp h; omega, (hcond2_1 t).mpr h1⟩

abbrev stg2_0 (t : Fin cfg2.N) : Memref sig .tc .vmem S2048x2048 .bf16 := win2_0.stage (cfg2.slots t 0)
abbrev hstg2_0 (t : Fin cfg2.N) : (stg2_0 t).IsWhole := hstage2_0 ((cfg2.slots t 0).cast nbuf2_0)
abbrev stg2_1 (t : Fin cfg2.N) : Memref sig .tc .vmem S2048x16 .f32 := win2_1.stage (cfg2.slots t 1)
abbrev hstg2_1 (t : Fin cfg2.N) : (stg2_1 t).IsWhole := hstage2_1 ((cfg2.slots t 1).cast nbuf2_1)
abbrev stg2_2 (t : Fin cfg2.N) : Memref sig .tc .vmem S2048x1 .f32 := win2_2.stage (cfg2.slots t 2)
abbrev hstg2_2 (t : Fin cfg2.N) : (stg2_2 t).IsWhole := hstage2_2 ((cfg2.slots t 2).cast nbuf2_2)
abbrev stg2_3 (t : Fin cfg2.N) : Memref sig .tc .vmem S2048x16 .f32 := win2_3.stage (cfg2.slots t 3)
abbrev hstg2_3 (t : Fin cfg2.N) : (stg2_3 t).IsWhole := hstage2_3 ((cfg2.slots t 3).cast nbuf2_3)
abbrev stg2_4 (t : Fin cfg2.N) : Memref sig .tc .vmem S2048x1 .f32 := win2_4.stage (cfg2.slots t 4)
abbrev hstg2_4 (t : Fin cfg2.N) : (stg2_4 t).IsWhole := hstage2_4 ((cfg2.slots t 4).cast nbuf2_4)
abbrev stg2_5 (t : Fin cfg2.N) : Memref sig .tc .vmem S1x16 .f32 := win2_5.stage (cfg2.slots t 5)
abbrev hstg2_5 (t : Fin cfg2.N) : (stg2_5 t).IsWhole := hstage2_5 ((cfg2.slots t 5).cast nbuf2_5)
abbrev stg2_6 (t : Fin cfg2.N) : Memref sig .tc .vmem S2048x16 .f32 := win2_6.stage (cfg2.slots t 6)
abbrev hstg2_6 (t : Fin cfg2.N) : (stg2_6 t).IsWhole := hstage2_6 ((cfg2.slots t 6).cast nbuf2_6)

abbrev scr2 : Memref sig .tc .vmem S2048x16 .f32 := Memref.whole cc2_scratch0

theorem PhiA2_eq (c : Dev nD) :
    (Pipeline.ΦA spec2 c : sProp 𝕄)
      = iprop(iprop((∃ d, owns (c : Thread nD τ) scr2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scr2, owns_whole]; try rfl

theorem scover2_A_0 (hc0 : cond2_0 i) (hc1 : ¬cond2_1 i)
    (x0 : Vec F S2048x2048 .bf16) (x1 : Vec F S2048x16 .f32) (x2 : Vec F S2048x1 .f32) (y : S2048x16.Idx) :
    ∃ pc ∈ (kernelRun2_A c i a0 w0 a1 w1 a2 w2 a3 w3 a4 w4 a5 w5 a6 w6 sc wsc hc0 hc1 x0 x1 x2).1, y ∈ pc.1.set :=
  View.cover_of_tiledL (kernelRun2_A c i a0 w0 a1 w1 a2 w2 a3 w3 a4 w4 a5 w5 a6 w6 sc wsc hc0 hc1 x0 x1 x2).1 S2048x16.size (by sl_kernel_rfl) y

def sout2_A_0 (hc0 : cond2_0 i) (hc1 : ¬cond2_1 i)
    (x0 : Vec F S2048x2048 .bf16) (x1 : Vec F S2048x16 .f32) (x2 : Vec F S2048x1 .f32) : Vec F S2048x16 .f32 :=
  View.canon (kernelRun2_A c i a0 w0 a1 w1 a2 w2 a3 w3 a4 w4 a5 w5 a6 w6 sc wsc hc0 hc1 x0 x1 x2).1

theorem scover2_B_0 (hc0 : ¬cond2_0 i) (hc1 : ¬cond2_1 i)
    (x0 : Vec F S2048x2048 .bf16) (x1 : Vec F S2048x16 .f32) (x2 : Vec F S2048x1 .f32) (xs : Vec F S2048x16 .f32) (y : S2048x16.Idx) :
    ∃ pc ∈ (kernelRun2_B c i a0 w0 a1 w1 a2 w2 a3 w3 a4 w4 a5 w5 a6 w6 sc wsc hc0 hc1 x0 x1 x2 xs).1, y ∈ pc.1.set :=
  View.cover_of_tiledL (kernelRun2_B c i a0 w0 a1 w1 a2 w2 a3 w3 a4 w4 a5 w5 a6 w6 sc wsc hc0 hc1 x0 x1 x2 xs).1 S2048x16.size (by sl_kernel_rfl) y

def sout2_B_0 (hc0 : ¬cond2_0 i) (hc1 : ¬cond2_1 i)
    (x0 : Vec F S2048x2048 .bf16) (x1 : Vec F S2048x16 .f32) (x2 : Vec F S2048x1 .f32) (xs : Vec F S2048x16 .f32) : Vec F S2048x16 .f32 :=
  View.canon (kernelRun2_B c i a0 w0 a1 w1 a2 w2 a3 w3 a4 w4 a5 w5 a6 w6 sc wsc hc0 hc1 x0 x1 x2 xs).1

theorem cover2_C_6 (hc0 : ¬cond2_0 i) (hc1 : cond2_1 i)
    (x0 : Vec F S2048x2048 .bf16) (x1 : Vec F S2048x16 .f32) (x2 : Vec F S2048x1 .f32) (x3 : Vec F S2048x16 .f32) (x4 : Vec F S2048x1 .f32)
    (x5 : Vec F S1x16 .f32) (xs : Vec F S2048x16 .f32) (y : S2048x16.Idx) :
    ∃ pc ∈ (kernelRun2_C c i a0 w0 a1 w1 a2 w2 a3 w3 a4 w4 a5 w5 a6 w6 sc wsc hc0 hc1 x0 x1 x2 x3 x4 x5 xs).1, y ∈ pc.1.set :=
  View.cover_of_tiledL (kernelRun2_C c i a0 w0 a1 w1 a2 w2 a3 w3 a4 w4 a5 w5 a6 w6 sc wsc hc0 hc1 x0 x1 x2 x3 x4 x5 xs).1 S2048x16.size (by sl_kernel_rfl) y

def out2_C_6 (hc0 : ¬cond2_0 i) (hc1 : cond2_1 i)
    (x0 : Vec F S2048x2048 .bf16) (x1 : Vec F S2048x16 .f32) (x2 : Vec F S2048x1 .f32) (x3 : Vec F S2048x16 .f32) (x4 : Vec F S2048x1 .f32)
    (x5 : Vec F S1x16 .f32) (xs : Vec F S2048x16 .f32) : Vec F S2048x16 .f32 :=
  View.canon (kernelRun2_C c i a0 w0 a1 w1 a2 w2 a3 w3 a4 w4 a5 w5 a6 w6 sc wsc hc0 hc1 x0 x1 x2 x3 x4 x5 xs).1

theorem scover2_C_0 (hc0 : ¬cond2_0 i) (hc1 : cond2_1 i)
    (x0 : Vec F S2048x2048 .bf16) (x1 : Vec F S2048x16 .f32) (x2 : Vec F S2048x1 .f32) (x3 : Vec F S2048x16 .f32) (x4 : Vec F S2048x1 .f32)
    (x5 : Vec F S1x16 .f32) (xs : Vec F S2048x16 .f32) (y : S2048x16.Idx) :
    ∃ pc ∈ (kernelRun2_C c i a0 w0 a1 w1 a2 w2 a3 w3 a4 w4 a5 w5 a6 w6 sc wsc hc0 hc1 x0 x1 x2 x3 x4 x5 xs).2.1, y ∈ pc.1.set :=
  View.cover_of_tiledL (kernelRun2_C c i a0 w0 a1 w1 a2 w2 a3 w3 a4 w4 a5 w5 a6 w6 sc wsc hc0 hc1 x0 x1 x2 x3 x4 x5 xs).2.1 S2048x16.size (by sl_kernel_rfl) y

def sout2_C_0 (hc0 : ¬cond2_0 i) (hc1 : cond2_1 i)
    (x0 : Vec F S2048x2048 .bf16) (x1 : Vec F S2048x16 .f32) (x2 : Vec F S2048x1 .f32) (x3 : Vec F S2048x16 .f32) (x4 : Vec F S2048x1 .f32)
    (x5 : Vec F S1x16 .f32) (xs : Vec F S2048x16 .f32) : Vec F S2048x16 .f32 :=
  View.canon (kernelRun2_C c i a0 w0 a1 w1 a2 w2 a3 w3 a4 w4 a5 w5 a6 w6 sc wsc hc0 hc1 x0 x1 x2 x3 x4 x5 xs).2.1

def unset2 : Vec F S2048x16 .f32 := View.canon []

def outsAt2 (c : Dev nD) : (n : ℕ) → n < cfg2.N → Vec F S2048x16 .f32 × Vec F S2048x16 .f32
  | 0, hn => (unset2, sout2_A_0 c (grid2.coords ⟨0, hn⟩) (stg2_0 ⟨0, hn⟩) (hstg2_0 ⟨0, hn⟩) (stg2_1 ⟨0, hn⟩) (hstg2_1 ⟨0, hn⟩) (stg2_2 ⟨0, hn⟩) (hstg2_2 ⟨0, hn⟩) (stg2_3 ⟨0, hn⟩) (hstg2_3 ⟨0, hn⟩) (stg2_4 ⟨0, hn⟩) (hstg2_4 ⟨0, hn⟩) (stg2_5 ⟨0, hn⟩) (hstg2_5 ⟨0, hn⟩) (stg2_6 ⟨0, hn⟩) (hstg2_6 ⟨0, hn⟩) scr2 (Memref.isWhole_whole _) (caseA2 ⟨0, hn⟩ (Nat.zero_mod _)).1 (caseA2 ⟨0, hn⟩ (Nat.zero_mod _)).2 (iblk2 V c 0 ⟨0, hn⟩) (iblk2 V c 1 ⟨0, hn⟩) (iblk2 V c 2 ⟨0, hn⟩))
  | n + 1, hn =>
    if h0 : (n + 1) % 6 = 0 then
      (unset2, sout2_A_0 c (grid2.coords ⟨n + 1, hn⟩) (stg2_0 ⟨n + 1, hn⟩) (hstg2_0 ⟨n + 1, hn⟩) (stg2_1 ⟨n + 1, hn⟩) (hstg2_1 ⟨n + 1, hn⟩) (stg2_2 ⟨n + 1, hn⟩) (hstg2_2 ⟨n + 1, hn⟩) (stg2_3 ⟨n + 1, hn⟩) (hstg2_3 ⟨n + 1, hn⟩) (stg2_4 ⟨n + 1, hn⟩) (hstg2_4 ⟨n + 1, hn⟩) (stg2_5 ⟨n + 1, hn⟩) (hstg2_5 ⟨n + 1, hn⟩) (stg2_6 ⟨n + 1, hn⟩) (hstg2_6 ⟨n + 1, hn⟩) scr2 (Memref.isWhole_whole _) (caseA2 ⟨n + 1, hn⟩ h0).1 (caseA2 ⟨n + 1, hn⟩ h0).2 (iblk2 V c 0 ⟨n + 1, hn⟩) (iblk2 V c 1 ⟨n + 1, hn⟩) (iblk2 V c 2 ⟨n + 1, hn⟩))
    else if h1 : (n + 1) % 6 = 5 then
      (out2_C_6 c (grid2.coords ⟨n + 1, hn⟩) (stg2_0 ⟨n + 1, hn⟩) (hstg2_0 ⟨n + 1, hn⟩) (stg2_1 ⟨n + 1, hn⟩) (hstg2_1 ⟨n + 1, hn⟩) (stg2_2 ⟨n + 1, hn⟩) (hstg2_2 ⟨n + 1, hn⟩) (stg2_3 ⟨n + 1, hn⟩) (hstg2_3 ⟨n + 1, hn⟩) (stg2_4 ⟨n + 1, hn⟩) (hstg2_4 ⟨n + 1, hn⟩) (stg2_5 ⟨n + 1, hn⟩) (hstg2_5 ⟨n + 1, hn⟩) (stg2_6 ⟨n + 1, hn⟩) (hstg2_6 ⟨n + 1, hn⟩) scr2 (Memref.isWhole_whole _) (caseC2 ⟨n + 1, hn⟩ h1).1 (caseC2 ⟨n + 1, hn⟩ h1).2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
       sout2_C_0 c (grid2.coords ⟨n + 1, hn⟩) (stg2_0 ⟨n + 1, hn⟩) (hstg2_0 ⟨n + 1, hn⟩) (stg2_1 ⟨n + 1, hn⟩) (hstg2_1 ⟨n + 1, hn⟩) (stg2_2 ⟨n + 1, hn⟩) (hstg2_2 ⟨n + 1, hn⟩) (stg2_3 ⟨n + 1, hn⟩) (hstg2_3 ⟨n + 1, hn⟩) (stg2_4 ⟨n + 1, hn⟩) (hstg2_4 ⟨n + 1, hn⟩) (stg2_5 ⟨n + 1, hn⟩) (hstg2_5 ⟨n + 1, hn⟩) (stg2_6 ⟨n + 1, hn⟩) (hstg2_6 ⟨n + 1, hn⟩) scr2 (Memref.isWhole_whole _) (caseC2 ⟨n + 1, hn⟩ h1).1 (caseC2 ⟨n + 1, hn⟩ h1).2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
    else
      (unset2, sout2_B_0 c (grid2.coords ⟨n + 1, hn⟩) (stg2_0 ⟨n + 1, hn⟩) (hstg2_0 ⟨n + 1, hn⟩) (stg2_1 ⟨n + 1, hn⟩) (hstg2_1 ⟨n + 1, hn⟩) (stg2_2 ⟨n + 1, hn⟩) (hstg2_2 ⟨n + 1, hn⟩) (stg2_3 ⟨n + 1, hn⟩) (hstg2_3 ⟨n + 1, hn⟩) (stg2_4 ⟨n + 1, hn⟩) (hstg2_4 ⟨n + 1, hn⟩) (stg2_5 ⟨n + 1, hn⟩) (hstg2_5 ⟨n + 1, hn⟩) (stg2_6 ⟨n + 1, hn⟩) (hstg2_6 ⟨n + 1, hn⟩) scr2 (Memref.isWhole_whole _) (caseB2 ⟨n + 1, hn⟩ h0 h1).1 (caseB2 ⟨n + 1, hn⟩ h0 h1).2 (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 6 = 0) :
    outsAt2 V c t.val t.isLt = (unset2, sout2_A_0 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseA2 t h0).1 (caseA2 t h0).2 (iblk2 V c 0 t) (iblk2 V c 1 t) (iblk2 V c 2 t)) := by
  obtain ⟨n, hn⟩ := t
  cases n with
  | zero => rfl
  | succ n => exact (dif_pos h0).trans rfl

theorem outsAt2_B (c : Dev nD) (t : Fin cfg2.N) (h0 : ¬t.val % 6 = 0) (h1 : ¬t.val % 6 = 5) :
    outsAt2 V c t.val t.isLt = (unset2, sout2_B_0 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseB2 t h0 h1).1 (caseB2 t h0 h1).2 (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h1 : t.val % 6 = 5) :
    outsAt2 V c t.val t.isLt
      = (out2_C_6 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h1).1 (caseC2 t h1).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
         sout2_C_0 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h1).1 (caseC2 t h1).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by dsimp only at h1; omega)
  | succ n => exact (dif_neg (fun h0 => by dsimp only at h0 h1; omega)).trans ((dif_pos h1).trans rfl)

def PhiS2 (c : Dev nD) : (n : ℕ) → n ≤ cfg2.N → sProp 𝕄
  | 0, _ => Pipeline.ΦA spec2 c
  | n + 1, hn => iprop(iprop(owns (c : Thread nD τ) scr2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scr2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scr2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := match w with
    | ⟨0, _⟩ => fullShare
    | ⟨1, _⟩ => PosShare.left fullShare
    | ⟨2, _⟩ => PosShare.left fullShare
    | ⟨3, _⟩ => PosShare.right fullShare
    | ⟨4, _⟩ => PosShare.right fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem q2_0 (c : Dev nD) : (dat2 V c).q 0 = fullShare := by dsimp only [dat2]
theorem q2_1 (c : Dev nD) : (dat2 V c).q 1 = PosShare.left fullShare := by dsimp only [dat2]
theorem q2_2 (c : Dev nD) : (dat2 V c).q 2 = PosShare.left fullShare := by dsimp only [dat2]
theorem q2_3 (c : Dev nD) : (dat2 V c).q 3 = PosShare.right fullShare := by dsimp only [dat2]
theorem q2_4 (c : Dev nD) : (dat2 V c).q 4 = PosShare.right fullShare := by dsimp only [dat2]
theorem q2_5 (c : Dev nD) : (dat2 V c).q 5 = fullShare := by dsimp only [dat2]
theorem owed_eq2 (c : Dev nD) (t : Fin (cfg2.N + 1)) : (dat2 V c).owed t = 0 := rfl
theorem recorded_eq2 (c : Dev nD) (t : Fin (cfg2.N + 1)) : (dat2 V c).recorded t = Set.univ := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

theorem leaves2_0 (c : Dev nD) (t : Fin cfg2.N) :
    (dat2 V c).leavesExact 0 t = owns (c : Thread nD τ) (stg2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (stg2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (stg2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (stg2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (stg2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (stg2_5 t) fullShare (iblk2 V c 5 t) := by
  unfold Dat.leavesExact; rw [liveAt2_5 t, after2_5]

theorem leaves2_6_idle (c : Dev nD) (t : Fin cfg2.N) (h : ¬cond2_1 (grid2.coords t)) :
    (dat2 V c).leavesExact 6 t = iprop(∃ d, owns (c : Thread nD τ) (stg2_6 t) fullShare ((dat2 V c).before 6 t d)) :=
  Dat.leavesExact_idle (dat2 V c) 6 t (idleAt2_6 t h) (noFlush2_6 t h)

theorem leaves2_6_live (c : Dev nD) (t : Fin cfg2.N) (h : cond2_1 (grid2.coords t)) :
    (dat2 V c).leavesExact 6 t = owns (c : Thread nD τ) (stg2_6 t) fullShare ((outsAt2 V c t.val t.isLt).1) := by
  unfold Dat.leavesExact; rw [liveAt2_6 t h, after2_6]

def bodyPre2 (c : Dev nD) (t : Fin cfg2.N) : sProp 𝕄 :=
  iprop((dat2 V c).Φ t.castSucc ∗ (dat2 V c).owesAt () t.castSucc
    ∗ (∃ d, owns (c : Thread nD τ) (stg2_0 t) fullShare ((dat2 V c).before 0 t d))
    ∗ (∃ d, owns (c : Thread nD τ) (stg2_1 t) fullShare ((dat2 V c).before 1 t d))
    ∗ (∃ d, owns (c : Thread nD τ) (stg2_2 t) fullShare ((dat2 V c).before 2 t d))
    ∗ (∃ d, owns (c : Thread nD τ) (stg2_3 t) fullShare ((dat2 V c).before 3 t d))
    ∗ (∃ d, owns (c : Thread nD τ) (stg2_4 t) fullShare ((dat2 V c).before 4 t d))
    ∗ (∃ d, owns (c : Thread nD τ) (stg2_5 t) fullShare ((dat2 V c).before 5 t d))
    ∗ (∃ d, owns (c : Thread nD τ) (stg2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  have hN : t.val < 36 := lt_of_lt_of_eq t.isLt (show cfg2.N = 36 from N_2)
  by_cases h0 : t.val % 6 = 0
  · rw [leaves2_6_idle V c t (caseA2 t h0).2, outsAt2_A V c t h0]
    unfold sout2_A_0; dsimp only
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseA2 t h0).1 (caseA2 t h0).2 (iblk2 V c 0 t) (iblk2 V c 1 t) (iblk2 V c 2 t)).2 Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_eq_canon _ _ _ (scover2_A_0 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseA2 t h0).1 (caseA2 t h0).2 (iblk2 V c 0 t) (iblk2 V c 1 t) (iblk2 V c 2 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseA2 t h0).1 (caseA2 t h0).2 (iblk2 V c 0 t) (iblk2 V c 1 t) (iblk2 V c 2 t)).2 Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_eq_canon _ _ _ (scover2_A_0 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseA2 t h0).1 (caseA2 t h0).2 (iblk2 V c 0 t) (iblk2 V c 1 t) (iblk2 V c 2 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [PhiS2_castSucc V c t, PhiS2_pos V c _ _ hz]
    by_cases h1 : t.val % 6 = 5
    · rw [leaves2_6_live V c t (caseC2 t h1).2, outsAt2_C V c t h1]
      unfold out2_C_6 sout2_C_0; dsimp only
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h1).1 (caseC2 t h1).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS HR Hg]
      · isplitl [HS HR]
        · isplitl [HS]
          · unfold owns; iexists _; isplitr
            swap; · iexact HS
            ipureintro; exact View.read_writes_eq_canon _ _ _ (scover2_C_0 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h1).1 (caseC2 t h1).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover2_C_6 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h1).1 (caseC2 t h1).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2)
    · rw [leaves2_6_idle V c t (caseB2 t h0 h1).2, outsAt2_B V c t h0 h1]
      unfold sout2_B_0; dsimp only
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseB2 t h0 h1).1 (caseB2 t h0 h1).2 (iblk2 V c 0 t) (iblk2 V c 1 t) (iblk2 V c 2 t) (outsAt2 V c (t.val - 1) (Nat.lt_of_le_of_lt (Nat.sub_le _ _) t.isLt)).2).2 Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_eq_canon _ _ _ (scover2_B_0 c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseB2 t h0 h1).1 (caseB2 t h0 h1).2 (iblk2 V c 0 t) (iblk2 V c 1 t) (iblk2 V c 2 t) (outsAt2 V c (t.val - 1) (Nat.lt_of_le_of_lt (Nat.sub_le _ _) t.isLt)).2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact BI.Entails.refl _

theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 36 := N_2; omega), PhiA2_eq]
  iintro ⟨⟨HS, HR⟩, Hg⟩
  isplitl [HS HR]
  · isplitl [HS]
    · iexists _; iexact HS
    iexact HR
  iexact Hg

theorem offs2_zero : (![0, 0] : Fin 2 → Nat) = fun _ => 0 := funext fun a => by fin_cases a <;> rfl

set_option maxHeartbeats 400000 in

theorem sout2_A_0_eq (hc0 : cond2_0 i) (hc1 : ¬cond2_1 i)
    (x0 : Vec F S2048x2048 .bf16) (x1 : Vec F S2048x16 .f32) (x2 : Vec F S2048x1 .f32) :
    sout2_A_0 c i a0 w0 a1 w1 a2 w2 a3 w3 a4 w4 a5 w5 a6 w6 sc wsc hc0 hc1 x0 x1 x2 = k2_pay2 x0 x1 x2 (k2_pay1 (F := F)) := by
  unfold sout2_A_0 kernelRun2_A
  dsimp only
  sl_unfold_words
  rw [View.canon_cons_unit_zero (S := S2048x16) offs2_zero]
  simp only [View.readAt_eq_ld, w0.read_unread, w1.read_unread, w2.read_unread, View.ld_unit_zero (S := S2048x2048) offs2_zero,
    View.ld_unit_zero (S := S2048x16) offs2_zero, View.ld_unit_zero (S := S2048x1) offs2_zero, View.ld_unit_zero (S := S1x16) offs2_zero,
    View.readCov_unit_zero (S := S2048x16) _ offs2_zero]

set_option maxHeartbeats 400000 in

theorem sout2_B_0_eq (hc0 : ¬cond2_0 i) (hc1 : ¬cond2_1 i)
    (x0 : Vec F S2048x2048 .bf16) (x1 : Vec F S2048x16 .f32) (x2 : Vec F S2048x1 .f32) (xs : Vec F S2048x16 .f32) :
    sout2_B_0 c i a0 w0 a1 w1 a2 w2 a3 w3 a4 w4 a5 w5 a6 w6 sc wsc hc0 hc1 x0 x1 x2 xs = k2_pay2 x0 x1 x2 xs := by
  unfold sout2_B_0 kernelRun2_B
  dsimp only
  sl_unfold_words
  rw [View.canon_unit_zero (S := S2048x16) offs2_zero]
  simp only [View.readAt_eq_ld, w0.read_unread, w1.read_unread, w2.read_unread, wsc.read_unread, View.ld_unit_zero (S := S2048x2048) offs2_zero,
    View.ld_unit_zero (S := S2048x16) offs2_zero, View.ld_unit_zero (S := S2048x1) offs2_zero, View.ld_unit_zero (S := S1x16) offs2_zero,
    View.readCov_unit_zero (S := S2048x16) _ offs2_zero]

set_option maxHeartbeats 400000 in

theorem sout2_C_0_eq (hc0 : ¬cond2_0 i) (hc1 : cond2_1 i)
    (x0 : Vec F S2048x2048 .bf16) (x1 : Vec F S2048x16 .f32) (x2 : Vec F S2048x1 .f32) (x3 : Vec F S2048x16 .f32) (x4 : Vec F S2048x1 .f32)
    (x5 : Vec F S1x16 .f32) (xs : Vec F S2048x16 .f32) :
    sout2_C_0 c i a0 w0 a1 w1 a2 w2 a3 w3 a4 w4 a5 w5 a6 w6 sc wsc hc0 hc1 x0 x1 x2 x3 x4 x5 xs = k2_pay2 x0 x1 x2 xs := by
  unfold sout2_C_0 kernelRun2_C
  dsimp only
  sl_unfold_words
  rw [View.canon_unit_zero (S := S2048x16) offs2_zero]
  simp only [View.readAt_eq_ld, w0.read_unread, w1.read_unread, w2.read_unread, wsc.read_unread, View.ld_unit_zero (S := S2048x2048) offs2_zero,
    View.ld_unit_zero (S := S2048x16) offs2_zero, View.ld_unit_zero (S := S2048x1) offs2_zero, View.ld_unit_zero (S := S1x16) offs2_zero,
    View.readCov_unit_zero (S := S2048x16) _ offs2_zero]

set_option maxHeartbeats 400000 in

theorem out2_C_6_eq (hc0 : ¬cond2_0 i) (hc1 : cond2_1 i)
    (x0 : Vec F S2048x2048 .bf16) (x1 : Vec F S2048x16 .f32) (x2 : Vec F S2048x1 .f32) (x3 : Vec F S2048x16 .f32) (x4 : Vec F S2048x1 .f32)
    (x5 : Vec F S1x16 .f32) (xs : Vec F S2048x16 .f32) :
    out2_C_6 c i a0 w0 a1 w1 a2 w2 a3 w3 a4 w4 a5 w5 a6 w6 sc wsc hc0 hc1 x0 x1 x2 x3 x4 x5 xs = k2_pay3 x4 x3 (k2_pay2 x0 x1 x2 xs) x5 := by
  unfold out2_C_6 kernelRun2_C
  dsimp only
  sl_unfold_words
  rw [View.canon_unit_zero (S := S2048x16) offs2_zero]
  simp only [View.readAt_eq_ld, w0.read_unread, w1.read_unread, w2.read_unread, w3.read_unread, w4.read_unread, w5.read_unread, wsc.read_unread, View.ld_unit_zero (S := S2048x2048) offs2_zero,
    View.ld_unit_zero (S := S2048x16) offs2_zero, View.ld_unit_zero (S := S2048x1) offs2_zero, View.ld_unit_zero (S := S1x16) offs2_zero,
    View.readCov_unit_zero (S := S2048x16) _ offs2_zero]

end Cert.KernelIdeal.Hand

end
-- ==== Proof.KI.Region3.lean ====
import proofs.«111342_j55946243997874_2_alg».proof.Proof.Gen.KernelIdeal.Launch
import proofs.«111342_j55946243997874_2_alg».proof.Proof.Gen.KernelIdeal.Skeleton
import proofs.«111342_j55946243997874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S2048x16 := Rect.unit (s := S2048x16) ![0, 0] S2048x16.size inb_S2048x16_S2048x16_0_0
abbrev r3_w : Rect S16x40 := Rect.unit (s := S16x40) ![0, 0] S16x40.size inb_S16x40_S16x40_0_0
abbrev r3_o : Rect S2048x40 := Rect.unit (s := S2048x40) ![0, 0] S2048x40.size inb_S2048x40_S2048x40_0_0

def out3_2 (x0 : Vec F S2048x16 .f32) (x1 : Vec F S16x40 .f32) : Vec F S2048x40 .f32 :=
  View.canon [⟨r3_o, k3_pay1 (View.ld x0 r3_x) (View.ld x1 r3_w)⟩]

theorem cover3_2 (p0 : Vec F S2048x40 .f32) (y : S2048x40.Idx) :
    ∃ pc ∈ ([⟨r3_o, p0⟩] : List (View.Piece (Elt F) S2048x40 .f32)), y ∈ pc.1.set :=
  View.cover_of_tiled [⟨r3_o, p0⟩] S2048x40.size (by rfl) y

set_option maxHeartbeats 1000000 in

theorem sound_kernel3 (c : Dev nD) (E : Set ℕ) (i : grid3.Coords) (arg1 : Memref sig .tc .vmem S2048x16 .f32) (harg1 : arg1.IsWhole)
    (arg2 : Memref sig .tc .vmem S16x40 .f32) (harg2 : arg2.IsWhole) (arg3 : Memref sig .tc .vmem S2048x40 .f32) (harg3 : arg3.IsWhole)
    (x0 : Vec F S2048x16 .f32) (x1 : Vec F S16x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

theorem hin3 (c : Dev nD) : Pipeline.ΦA spec3 c ⊢ (dat3 (F := F) V c).Φ 0 := BI.Entails.refl _
theorem hout3 (c : Dev nD) : (dat3 (F := F) V c).Φ (Fin.last cfg3.N) ⊢ Pipeline.ΦA spec3 c := BI.Entails.refl _

end Cert.KernelIdeal.Hand

end
-- ==== Proof.KI.Region4.lean ====
import proofs.«111342_j55946243997874_2_alg».proof.Proof.Gen.KernelIdeal.Launch
import proofs.«111342_j55946243997874_2_alg».proof.Proof.Gen.KernelIdeal.Skeleton
import proofs.«111342_j55946243997874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 6 = 0 :=
  (by decide +kernel : ∀ t : Fin grid4.N, cond4_0 (grid4.coords t) ↔ t.val % 6 = 0)

abbrev cond4_1 (i : grid4.Coords) : Prop := k4_cond2 i = 1#1

theorem hcond4_1 : ∀ t : Fin cfg4.N, cond4_1 (grid4.coords t) ↔ t.val % 6 = 5 :=
  (by decide +kernel : ∀ t : Fin grid4.N, cond4_1 (grid4.coords t) ↔ t.val % 6 = 5)

variable (c : Dev nD) (i : grid4.Coords) (a0 : Memref sig .tc .vmem S2048x2048 .bf16) (w0 : a0.IsWhole) (a1 : Memref sig .tc .vmem S2048x40 .f32) (w1 : a1.IsWhole) (a2 : Memref sig .tc .vmem S2048x1 .f32) (w2 : a2.IsWhole) (a3 : Memref sig .tc .vmem S2048x40 .f32) (w3 : a3.IsWhole) (a4 : Memref sig .tc .vmem S2048x1 .f32) (w4 : a4.IsWhole) (a5 : Memref sig .tc .vmem S1x40 .f32) (w5 : a5.IsWhole) (a6 : Memref sig .tc .vmem S2048x40 .f32) (w6 : a6.IsWhole) (sc : Memref sig .tc .vmem S2048x40 .f32) (wsc : sc.IsWhole)

set_option maxHeartbeats 1000000 in

def kernelRun4_A (hc0 : cond4_0 i) (hc1 : ¬cond4_1 i)
    (x0 : Vec F S2048x2048 .bf16) (x1 : Vec F S2048x40 .f32) (x2 : Vec F S2048x1 .f32) :
    { LS : List (View.Piece (Elt F) S2048x40 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ (∃ d, owns (c : Thread nD τ) sc fullShare d)
            ∗ (iprop(owns (c : Thread nD τ) a0 fullShare x0 ∗ owns (c : Thread nD τ) a1 fullShare x1 ∗ owns (c : Thread nD τ) a2 fullShare x2
                ∗ (∃ f, sc.view.loc (c : Thread nD τ) ↦[sc.view.set]{fullShare} sc.view.writes (Elt F) f LS)) -∗ K ⟨⟩))
          ⊢ wp frame (wpE (defs₀ (F := F)) Variants.none c none) E (cc4_kernel i a0 w0 a1 w1 a2 w2 a3 w3 a4 w4 a5 w5 a6 w6 sc wsc) K } := by
  refine ⟨?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds, %fs, -, HS⟩, Hk⟩
    obtain rfl := w0.eq_unread hf0; obtain rfl := w1.eq_unread hf1; obtain rfl := w2.eq_unread hf2
    sl_exec (disch := first | exact hc0 | exact hc1)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    iexists _; iexact HS

set_option maxHeartbeats 1000000 in

def kernelRun4_B (hc0 : ¬cond4_0 i) (hc1 : ¬cond4_1 i)
    (x0 : Vec F S2048x2048 .bf16) (x1 : Vec F S2048x40 .f32) (x2 : Vec F S2048x1 .f32) (xs : Vec F S2048x40 .f32) :
    { LS : List (View.Piece (Elt F) S2048x40 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) sc fullShare xs
            ∗ (iprop(owns (c : Thread nD τ) a0 fullShare x0 ∗ owns (c : Thread nD τ) a1 fullShare x1 ∗ owns (c : Thread nD τ) a2 fullShare x2
                ∗ (∃ f, sc.view.loc (c : Thread nD τ) ↦[sc.view.set]{fullShare} sc.view.writes (Elt F) f LS)) -∗ K ⟨⟩))
          ⊢ wp frame (wpE (defs₀ (F := F)) Variants.none c none) E (cc4_kernel i a0 w0 a1 w1 a2 w2 a3 w3 a4 w4 a5 w5 a6 w6 sc wsc) K } := by
  refine ⟨?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs, %hfs, HS⟩, Hk⟩
    obtain rfl := w0.eq_unread hf0; obtain rfl := w1.eq_unread hf1; obtain rfl := w2.eq_unread hf2; obtain rfl := wsc.eq_unread hfs
    sl_exec (disch := first | exact hc0 | exact hc1)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    iexists _; iexact HS

set_option maxHeartbeats 1000000 in

def kernelRun4_C (hc0 : ¬cond4_0 i) (hc1 : cond4_1 i)
    (x0 : Vec F S2048x2048 .bf16) (x1 : Vec F S2048x40 .f32) (x2 : Vec F S2048x1 .f32) (x3 : Vec F S2048x40 .f32) (x4 : Vec F S2048x1 .f32)
    (x5 : Vec F S1x40 .f32) (xs : Vec F S2048x40 .f32) :
    Σ' (LO : List (View.Piece (Elt F) S2048x40 .f32)), { LS : List (View.Piece (Elt F) S2048x40 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ (∃ d, owns (c : Thread nD τ) a6 fullShare d) ∗ owns (c : Thread nD τ) sc fullShare xs
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f LO)
                ∗ (∃ f, sc.view.loc (c : Thread nD τ) ↦[sc.view.set]{fullShare} sc.view.writes (Elt F) f LS)) -∗ K ⟨⟩))
          ⊢ wp frame (wpE (defs₀ (F := F)) Variants.none c none) E (cc4_kernel i a0 w0 a1 w1 a2 w2 a3 w3 a4 w4 a5 w5 a6 w6 sc wsc) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := w0.eq_unread hf0; obtain rfl := w1.eq_unread hf1; obtain rfl := w2.eq_unread hf2; obtain rfl := w3.eq_unread hf3
    obtain rfl := w4.eq_unread hf4; obtain rfl := w5.eq_unread hf5; obtain rfl := wsc.eq_unread hfs
    sl_exec (disch := first | exact hc0 | exact hc1)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]; · iexists _; iexact H6
    iexists _; iexact HS

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel

theorem idleAt4_6 : ∀ t : Fin cfg4.N, ¬cond4_1 (grid4.coords t) → cfg4.idle 6 (grid4.coords t) = true := by decide +kernel

theorem noFlush4_6 : ∀ t : Fin cfg4.N, ¬cond4_1 (grid4.coords t) → (cfg4.win 6).flush t = false := by decide +kernel

theorem liveAt4_6 : ∀ t : Fin cfg4.N, cond4_1 (grid4.coords t) → cfg4.idle 6 (grid4.coords t) = false := by decide +kernel

theorem caseA4 (t : Fin cfg4.N) (h0 : t.val % 6 = 0) : cond4_0 (grid4.coords t) ∧ ¬cond4_1 (grid4.coords t) :=
  ⟨(hcond4_0 t).mpr h0, fun h => by have h' := (hcond4_1 t).mp h; omega⟩

theorem caseB4 (t : Fin cfg4.N) (h0 : ¬t.val % 6 = 0) (h1 : ¬t.val % 6 = 5) : ¬cond4_0 (grid4.coords t) ∧ ¬cond4_1 (grid4.coords t) :=
  ⟨fun h => h0 ((hcond4_0 t).mp h), fun h => h1 ((hcond4_1 t).mp h)⟩

theorem caseC4 (t : Fin cfg4.N) (h1 : t.val % 6 = 5) : ¬cond4_0 (grid4.coords t) ∧ cond4_1 (grid4.coords t) :=
  ⟨fun h => by have h' := (hcond4_0 t).mp h; omega, (hcond4_1 t).mpr h1⟩

abbrev stg4_0 (t : Fin cfg4.N) : Memref sig .tc .vmem S2048x2048 .bf16 := win4_0.stage (cfg4.slots t 0)
abbrev hstg4_0 (t : Fin cfg4.N) : (stg4_0 t).IsWhole := hstage4_0 ((cfg4.slots t 0).cast nbuf4_0)
abbrev stg4_1 (t : Fin cfg4.N) : Memref sig .tc .vmem S2048x40 .f32 := win4_1.stage (cfg4.slots t 1)
abbrev hstg4_1 (t : Fin cfg4.N) : (stg4_1 t).IsWhole := hstage4_1 ((cfg4.slots t 1).cast nbuf4_1)
abbrev stg4_2 (t : Fin cfg4.N) : Memref sig .tc .vmem S2048x1 .f32 := win4_2.stage (cfg4.slots t 2)
abbrev hstg4_2 (t : Fin cfg4.N) : (stg4_2 t).IsWhole := hstage4_2 ((cfg4.slots t 2).cast nbuf4_2)
abbrev stg4_3 (t : Fin cfg4.N) : Memref sig .tc .vmem S2048x40 .f32 := win4_3.stage (cfg4.slots t 3)
abbrev hstg4_3 (t : Fin cfg4.N) : (stg4_3 t).IsWhole := hstage4_3 ((cfg4.slots t 3).cast nbuf4_3)
abbrev stg4_4 (t : Fin cfg4.N) : Memref sig .tc .vmem S2048x1 .f32 := win4_4.stage (cfg4.slots t 4)
abbrev hstg4_4 (t : Fin cfg4.N) : (stg4_4 t).IsWhole := hstage4_4 ((cfg4.slots t 4).cast nbuf4_4)
abbrev stg4_5 (t : Fin cfg4.N) : Memref sig .tc .vmem S1x40 .f32 := win4_5.stage (cfg4.slots t 5)
abbrev hstg4_5 (t : Fin cfg4.N) : (stg4_5 t).IsWhole := hstage4_5 ((cfg4.slots t 5).cast nbuf4_5)
abbrev stg4_6 (t : Fin cfg4.N) : Memref sig .tc .vmem S2048x40 .f32 := win4_6.stage (cfg4.slots t 6)
abbrev hstg4_6 (t : Fin cfg4.N) : (stg4_6 t).IsWhole := hstage4_6 ((cfg4.slots t 6).cast nbuf4_6)

abbrev scr4 : Memref sig .tc .vmem S2048x40 .f32 := Memref.whole cc4_scratch0

theorem PhiA4_eq (c : Dev nD) :
    (Pipeline.ΦA spec4 c : sProp 𝕄)
      = iprop(iprop((∃ d, owns (c : Thread nD τ) scr4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scr4, owns_whole]; try rfl

theorem scover4_A_0 (hc0 : cond4_0 i) (hc1 : ¬cond4_1 i)
    (x0 : Vec F S2048x2048 .bf16) (x1 : Vec F S2048x40 .f32) (x2 : Vec F S2048x1 .f32) (y : S2048x40.Idx) :
    ∃ pc ∈ (kernelRun4_A c i a0 w0 a1 w1 a2 w2 a3 w3 a4 w4 a5 w5 a6 w6 sc wsc hc0 hc1 x0 x1 x2).1, y ∈ pc.1.set :=
  View.cover_of_tiledL (kernelRun4_A c i a0 w0 a1 w1 a2 w2 a3 w3 a4 w4 a5 w5 a6 w6 sc wsc hc0 hc1 x0 x1 x2).1 S2048x40.size (by sl_kernel_rfl) y

def sout4_A_0 (hc0 : cond4_0 i) (hc1 : ¬cond4_1 i)
    (x0 : Vec F S2048x2048 .bf16) (x1 : Vec F S2048x40 .f32) (x2 : Vec F S2048x1 .f32) : Vec F S2048x40 .f32 :=
  View.canon (kernelRun4_A c i a0 w0 a1 w1 a2 w2 a3 w3 a4 w4 a5 w5 a6 w6 sc wsc hc0 hc1 x0 x1 x2).1

theorem scover4_B_0 (hc0 : ¬cond4_0 i) (hc1 : ¬cond4_1 i)
    (x0 : Vec F S2048x2048 .bf16) (x1 : Vec F S2048x40 .f32) (x2 : Vec F S2048x1 .f32) (xs : Vec F S2048x40 .f32) (y : S2048x40.Idx) :
    ∃ pc ∈ (kernelRun4_B c i a0 w0 a1 w1 a2 w2 a3 w3 a4 w4 a5 w5 a6 w6 sc wsc hc0 hc1 x0 x1 x2 xs).1, y ∈ pc.1.set :=
  View.cover_of_tiledL (kernelRun4_B c i a0 w0 a1 w1 a2 w2 a3 w3 a4 w4 a5 w5 a6 w6 sc wsc hc0 hc1 x0 x1 x2 xs).1 S2048x40.size (by sl_kernel_rfl) y

def sout4_B_0 (hc0 : ¬cond4_0 i) (hc1 : ¬cond4_1 i)
    (x0 : Vec F S2048x2048 .bf16) (x1 : Vec F S2048x40 .f32) (x2 : Vec F S2048x1 .f32) (xs : Vec F S2048x40 .f32) : Vec F S2048x40 .f32 :=
  View.canon (kernelRun4_B c i a0 w0 a1 w1 a2 w2 a3 w3 a4 w4 a5 w5 a6 w6 sc wsc hc0 hc1 x0 x1 x2 xs).1

theorem cover4_C_6 (hc0 : ¬cond4_0 i) (hc1 : cond4_1 i)
    (x0 : Vec F S2048x2048 .bf16) (x1 : Vec F S2048x40 .f32) (x2 : Vec F S2048x1 .f32) (x3 : Vec F S2048x40 .f32) (x4 : Vec F S2048x1 .f32)
    (x5 : Vec F S1x40 .f32) (xs : Vec F S2048x40 .f32) (y : S2048x40.Idx) :
    ∃ pc ∈ (kernelRun4_C c i a0 w0 a1 w1 a2 w2 a3 w3 a4 w4 a5 w5 a6 w6 sc wsc hc0 hc1 x0 x1 x2 x3 x4 x5 xs).1, y ∈ pc.1.set :=
  View.cover_of_tiledL (kernelRun4_C c i a0 w0 a1 w1 a2 w2 a3 w3 a4 w4 a5 w5 a6 w6 sc wsc hc0 hc1 x0 x1 x2 x3 x4 x5 xs).1 S2048x40.size (by sl_kernel_rfl) y

def out4_C_6 (hc0 : ¬cond4_0 i) (hc1 : cond4_1 i)
    (x0 : Vec F S2048x2048 .bf16) (x1 : Vec F S2048x40 .f32) (x2 : Vec F S2048x1 .f32) (x3 : Vec F S2048x40 .f32) (x4 : Vec F S2048x1 .f32)
    (x5 : Vec F S1x40 .f32) (xs : Vec F S2048x40 .f32) : Vec F S2048x40 .f32 :=
  View.canon (kernelRun4_C c i a0 w0 a1 w1 a2 w2 a3 w3 a4 w4 a5 w5 a6 w6 sc wsc hc0 hc1 x0 x1 x2 x3 x4 x5 xs).1

theorem scover4_C_0 (hc0 : ¬cond4_0 i) (hc1 : cond4_1 i)
    (x0 : Vec F S2048x2048 .bf16) (x1 : Vec F S2048x40 .f32) (x2 : Vec F S2048x1 .f32) (x3 : Vec F S2048x40 .f32) (x4 : Vec F S2048x1 .f32)
    (x5 : Vec F S1x40 .f32) (xs : Vec F S2048x40 .f32) (y : S2048x40.Idx) :
    ∃ pc ∈ (kernelRun4_C c i a0 w0 a1 w1 a2 w2 a3 w3 a4 w4 a5 w5 a6 w6 sc wsc hc0 hc1 x0 x1 x2 x3 x4 x5 xs).2.1, y ∈ pc.1.set :=
  View.cover_of_tiledL (kernelRun4_C c i a0 w0 a1 w1 a2 w2 a3 w3 a4 w4 a5 w5 a6 w6 sc wsc hc0 hc1 x0 x1 x2 x3 x4 x5 xs).2.1 S2048x40.size (by sl_kernel_rfl) y

def sout4_C_0 (hc0 : ¬cond4_0 i) (hc1 : cond4_1 i)
    (x0 : Vec F S2048x2048 .bf16) (x1 : Vec F S2048x40 .f32) (x2 : Vec F S2048x1 .f32) (x3 : Vec F S2048x40 .f32) (x4 : Vec F S2048x1 .f32)
    (x5 : Vec F S1x40 .f32) (xs : Vec F S2048x40 .f32) : Vec F S2048x40 .f32 :=
  View.canon (kernelRun4_C c i a0 w0 a1 w1 a2 w2 a3 w3 a4 w4 a5 w5 a6 w6 sc wsc hc0 hc1 x0 x1 x2 x3 x4 x5 xs).2.1

def unset4 : Vec F S2048x40 .f32 := View.canon []

def outsAt4 (c : Dev nD) : (n : ℕ) → n < cfg4.N → Vec F S2048x40 .f32 × Vec F S2048x40 .f32
  | 0, hn => (unset4, sout4_A_0 c (grid4.coords ⟨0, hn⟩) (stg4_0 ⟨0, hn⟩) (hstg4_0 ⟨0, hn⟩) (stg4_1 ⟨0, hn⟩) (hstg4_1 ⟨0, hn⟩) (stg4_2 ⟨0, hn⟩) (hstg4_2 ⟨0, hn⟩) (stg4_3 ⟨0, hn⟩) (hstg4_3 ⟨0, hn⟩) (stg4_4 ⟨0, hn⟩) (hstg4_4 ⟨0, hn⟩) (stg4_5 ⟨0, hn⟩) (hstg4_5 ⟨0, hn⟩) (stg4_6 ⟨0, hn⟩) (hstg4_6 ⟨0, hn⟩) scr4 (Memref.isWhole_whole _) (caseA4 ⟨0, hn⟩ (Nat.zero_mod _)).1 (caseA4 ⟨0, hn⟩ (Nat.zero_mod _)).2 (iblk4 V c 0 ⟨0, hn⟩) (iblk4 V c 1 ⟨0, hn⟩) (iblk4 V c 2 ⟨0, hn⟩))
  | n + 1, hn =>
    if h0 : (n + 1) % 6 = 0 then
      (unset4, sout4_A_0 c (grid4.coords ⟨n + 1, hn⟩) (stg4_0 ⟨n + 1, hn⟩) (hstg4_0 ⟨n + 1, hn⟩) (stg4_1 ⟨n + 1, hn⟩) (hstg4_1 ⟨n + 1, hn⟩) (stg4_2 ⟨n + 1, hn⟩) (hstg4_2 ⟨n + 1, hn⟩) (stg4_3 ⟨n + 1, hn⟩) (hstg4_3 ⟨n + 1, hn⟩) (stg4_4 ⟨n + 1, hn⟩) (hstg4_4 ⟨n + 1, hn⟩) (stg4_5 ⟨n + 1, hn⟩) (hstg4_5 ⟨n + 1, hn⟩) (stg4_6 ⟨n + 1, hn⟩) (hstg4_6 ⟨n + 1, hn⟩) scr4 (Memref.isWhole_whole _) (caseA4 ⟨n + 1, hn⟩ h0).1 (caseA4 ⟨n + 1, hn⟩ h0).2 (iblk4 V c 0 ⟨n + 1, hn⟩) (iblk4 V c 1 ⟨n + 1, hn⟩) (iblk4 V c 2 ⟨n + 1, hn⟩))
    else if h1 : (n + 1) % 6 = 5 then
      (out4_C_6 c (grid4.coords ⟨n + 1, hn⟩) (stg4_0 ⟨n + 1, hn⟩) (hstg4_0 ⟨n + 1, hn⟩) (stg4_1 ⟨n + 1, hn⟩) (hstg4_1 ⟨n + 1, hn⟩) (stg4_2 ⟨n + 1, hn⟩) (hstg4_2 ⟨n + 1, hn⟩) (stg4_3 ⟨n + 1, hn⟩) (hstg4_3 ⟨n + 1, hn⟩) (stg4_4 ⟨n + 1, hn⟩) (hstg4_4 ⟨n + 1, hn⟩) (stg4_5 ⟨n + 1, hn⟩) (hstg4_5 ⟨n + 1, hn⟩) (stg4_6 ⟨n + 1, hn⟩) (hstg4_6 ⟨n + 1, hn⟩) scr4 (Memref.isWhole_whole _) (caseC4 ⟨n + 1, hn⟩ h1).1 (caseC4 ⟨n + 1, hn⟩ h1).2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2,
       sout4_C_0 c (grid4.coords ⟨n + 1, hn⟩) (stg4_0 ⟨n + 1, hn⟩) (hstg4_0 ⟨n + 1, hn⟩) (stg4_1 ⟨n + 1, hn⟩) (hstg4_1 ⟨n + 1, hn⟩) (stg4_2 ⟨n + 1, hn⟩) (hstg4_2 ⟨n + 1, hn⟩) (stg4_3 ⟨n + 1, hn⟩) (hstg4_3 ⟨n + 1, hn⟩) (stg4_4 ⟨n + 1, hn⟩) (hstg4_4 ⟨n + 1, hn⟩) (stg4_5 ⟨n + 1, hn⟩) (hstg4_5 ⟨n + 1, hn⟩) (stg4_6 ⟨n + 1, hn⟩) (hstg4_6 ⟨n + 1, hn⟩) scr4 (Memref.isWhole_whole _) (caseC4 ⟨n + 1, hn⟩ h1).1 (caseC4 ⟨n + 1, hn⟩ h1).2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)
    else
      (unset4, sout4_B_0 c (grid4.coords ⟨n + 1, hn⟩) (stg4_0 ⟨n + 1, hn⟩) (hstg4_0 ⟨n + 1, hn⟩) (stg4_1 ⟨n + 1, hn⟩) (hstg4_1 ⟨n + 1, hn⟩) (stg4_2 ⟨n + 1, hn⟩) (hstg4_2 ⟨n + 1, hn⟩) (stg4_3 ⟨n + 1, hn⟩) (hstg4_3 ⟨n + 1, hn⟩) (stg4_4 ⟨n + 1, hn⟩) (hstg4_4 ⟨n + 1, hn⟩) (stg4_5 ⟨n + 1, hn⟩) (hstg4_5 ⟨n + 1, hn⟩) (stg4_6 ⟨n + 1, hn⟩) (hstg4_6 ⟨n + 1, hn⟩) scr4 (Memref.isWhole_whole _) (caseB4 ⟨n + 1, hn⟩ h0 h1).1 (caseB4 ⟨n + 1, hn⟩ h0 h1).2 (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 6 = 0) :
    outsAt4 V c t.val t.isLt = (unset4, sout4_A_0 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseA4 t h0).1 (caseA4 t h0).2 (iblk4 V c 0 t) (iblk4 V c 1 t) (iblk4 V c 2 t)) := by
  obtain ⟨n, hn⟩ := t
  cases n with
  | zero => rfl
  | succ n => exact (dif_pos h0).trans rfl

theorem outsAt4_B (c : Dev nD) (t : Fin cfg4.N) (h0 : ¬t.val % 6 = 0) (h1 : ¬t.val % 6 = 5) :
    outsAt4 V c t.val t.isLt = (unset4, sout4_B_0 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseB4 t h0 h1).1 (caseB4 t h0 h1).2 (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h1 : t.val % 6 = 5) :
    outsAt4 V c t.val t.isLt
      = (out4_C_6 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseC4 t h1).1 (caseC4 t h1).2 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2,
         sout4_C_0 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseC4 t h1).1 (caseC4 t h1).2 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by dsimp only at h1; omega)
  | succ n => exact (dif_neg (fun h0 => by dsimp only at h0 h1; omega)).trans ((dif_pos h1).trans rfl)

def PhiS4 (c : Dev nD) : (n : ℕ) → n ≤ cfg4.N → sProp 𝕄
  | 0, _ => Pipeline.ΦA spec4 c
  | n + 1, hn => iprop(iprop(owns (c : Thread nD τ) scr4 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scr4 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scr4 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q w := match w with
    | ⟨0, _⟩ => fullShare
    | ⟨1, _⟩ => PosShare.left fullShare
    | ⟨2, _⟩ => PosShare.left fullShare
    | ⟨3, _⟩ => PosShare.right fullShare
    | ⟨4, _⟩ => PosShare.right fullShare
    | ⟨5, _⟩ => fullShare
    | ⟨6, _⟩ => fullShare
  owed _ := 0

theorem A_eq4 (c : Dev nD) (w : Fin cfg4.W) : (dat4 V c).A w = V c (Pipeline.arrRef spec4 w) := by
  dsimp only [dat4]

theorem q4_0 (c : Dev nD) : (dat4 V c).q 0 = fullShare := by dsimp only [dat4]
theorem q4_1 (c : Dev nD) : (dat4 V c).q 1 = PosShare.left fullShare := by dsimp only [dat4]
theorem q4_2 (c : Dev nD) : (dat4 V c).q 2 = PosShare.left fullShare := by dsimp only [dat4]
theorem q4_3 (c : Dev nD) : (dat4 V c).q 3 = PosShare.right fullShare := by dsimp only [dat4]
theorem q4_4 (c : Dev nD) : (dat4 V c).q 4 = PosShare.right fullShare := by dsimp only [dat4]
theorem q4_5 (c : Dev nD) : (dat4 V c).q 5 = fullShare := by dsimp only [dat4]
theorem owed_eq4 (c : Dev nD) (t : Fin (cfg4.N + 1)) : (dat4 V c).owed t = 0 := rfl
theorem recorded_eq4 (c : Dev nD) (t : Fin (cfg4.N + 1)) : (dat4 V c).recorded t = Set.univ := rfl

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

theorem leaves4_0 (c : Dev nD) (t : Fin cfg4.N) :
    (dat4 V c).leavesExact 0 t = owns (c : Thread nD τ) (stg4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (stg4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (stg4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (stg4_3 t) fullShare (iblk4 V c 3 t) := by
  unfold Dat.leavesExact; rw [liveAt4_3 t, after4_3]
theorem leaves4_4 (c : Dev nD) (t : Fin cfg4.N) :
    (dat4 V c).leavesExact 4 t = owns (c : Thread nD τ) (stg4_4 t) fullShare (iblk4 V c 4 t) := by
  unfold Dat.leavesExact; rw [liveAt4_4 t, after4_4]
theorem leaves4_5 (c : Dev nD) (t : Fin cfg4.N) :
    (dat4 V c).leavesExact 5 t = owns (c : Thread nD τ) (stg4_5 t) fullShare (iblk4 V c 5 t) := by
  unfold Dat.leavesExact; rw [liveAt4_5 t, after4_5]

theorem leaves4_6_idle (c : Dev nD) (t : Fin cfg4.N) (h : ¬cond4_1 (grid4.coords t)) :
    (dat4 V c).leavesExact 6 t = iprop(∃ d, owns (c : Thread nD τ) (stg4_6 t) fullShare ((dat4 V c).before 6 t d)) :=
  Dat.leavesExact_idle (dat4 V c) 6 t (idleAt4_6 t h) (noFlush4_6 t h)

theorem leaves4_6_live (c : Dev nD) (t : Fin cfg4.N) (h : cond4_1 (grid4.coords t)) :
    (dat4 V c).leavesExact 6 t = owns (c : Thread nD τ) (stg4_6 t) fullShare ((outsAt4 V c t.val t.isLt).1) := by
  unfold Dat.leavesExact; rw [liveAt4_6 t h, after4_6]

def bodyPre4 (c : Dev nD) (t : Fin cfg4.N) : sProp 𝕄 :=
  iprop((dat4 V c).Φ t.castSucc ∗ (dat4 V c).owesAt () t.castSucc
    ∗ (∃ d, owns (c : Thread nD τ) (stg4_0 t) fullShare ((dat4 V c).before 0 t d))
    ∗ (∃ d, owns (c : Thread nD τ) (stg4_1 t) fullShare ((dat4 V c).before 1 t d))
    ∗ (∃ d, owns (c : Thread nD τ) (stg4_2 t) fullShare ((dat4 V c).before 2 t d))
    ∗ (∃ d, owns (c : Thread nD τ) (stg4_3 t) fullShare ((dat4 V c).before 3 t d))
    ∗ (∃ d, owns (c : Thread nD τ) (stg4_4 t) fullShare ((dat4 V c).before 4 t d))
    ∗ (∃ d, owns (c : Thread nD τ) (stg4_5 t) fullShare ((dat4 V c).before 5 t d))
    ∗ (∃ d, owns (c : Thread nD τ) (stg4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5]
  have hN : t.val < 36 := lt_of_lt_of_eq t.isLt (show cfg4.N = 36 from N_4)
  by_cases h0 : t.val % 6 = 0
  · rw [leaves4_6_idle V c t (caseA4 t h0).2, outsAt4_A V c t h0]
    unfold sout4_A_0; dsimp only
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_A c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseA4 t h0).1 (caseA4 t h0).2 (iblk4 V c 0 t) (iblk4 V c 1 t) (iblk4 V c 2 t)).2 Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_eq_canon _ _ _ (scover4_A_0 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseA4 t h0).1 (caseA4 t h0).2 (iblk4 V c 0 t) (iblk4 V c 1 t) (iblk4 V c 2 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_A c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseA4 t h0).1 (caseA4 t h0).2 (iblk4 V c 0 t) (iblk4 V c 1 t) (iblk4 V c 2 t)).2 Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_eq_canon _ _ _ (scover4_A_0 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseA4 t h0).1 (caseA4 t h0).2 (iblk4 V c 0 t) (iblk4 V c 1 t) (iblk4 V c 2 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [PhiS4_castSucc V c t, PhiS4_pos V c _ _ hz]
    by_cases h1 : t.val % 6 = 5
    · rw [leaves4_6_live V c t (caseC4 t h1).2, outsAt4_C V c t h1]
      unfold out4_C_6 sout4_C_0; dsimp only
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseC4 t h1).1 (caseC4 t h1).2 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS HR Hg]
      · isplitl [HS HR]
        · isplitl [HS]
          · unfold owns; iexists _; isplitr
            swap; · iexact HS
            ipureintro; exact View.read_writes_eq_canon _ _ _ (scover4_C_0 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseC4 t h1).1 (caseC4 t h1).2 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover4_C_6 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseC4 t h1).1 (caseC4 t h1).2 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2)
    · rw [leaves4_6_idle V c t (caseB4 t h0 h1).2, outsAt4_B V c t h0 h1]
      unfold sout4_B_0; dsimp only
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseB4 t h0 h1).1 (caseB4 t h0 h1).2 (iblk4 V c 0 t) (iblk4 V c 1 t) (iblk4 V c 2 t) (outsAt4 V c (t.val - 1) (Nat.lt_of_le_of_lt (Nat.sub_le _ _) t.isLt)).2).2 Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_eq_canon _ _ _ (scover4_B_0 c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseB4 t h0 h1).1 (caseB4 t h0 h1).2 (iblk4 V c 0 t) (iblk4 V c 1 t) (iblk4 V c 2 t) (outsAt4 V c (t.val - 1) (Nat.lt_of_le_of_lt (Nat.sub_le _ _) t.isLt)).2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]
  try exact BI.Entails.refl _

theorem hout4 (c : Dev nD) : (dat4 (F := F) V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 36 := N_4; omega), PhiA4_eq]
  iintro ⟨⟨HS, HR⟩, Hg⟩
  isplitl [HS HR]
  · isplitl [HS]
    · iexists _; iexact HS
    iexact HR
  iexact Hg

theorem offs4_zero : (![0, 0] : Fin 2 → Nat) = fun _ => 0 := funext fun a => by fin_cases a <;> rfl

set_option maxHeartbeats 400000 in

theorem sout4_A_0_eq (hc0 : cond4_0 i) (hc1 : ¬cond4_1 i)
    (x0 : Vec F S2048x2048 .bf16) (x1 : Vec F S2048x40 .f32) (x2 : Vec F S2048x1 .f32) :
    sout4_A_0 c i a0 w0 a1 w1 a2 w2 a3 w3 a4 w4 a5 w5 a6 w6 sc wsc hc0 hc1 x0 x1 x2 = k4_pay2 x0 x1 x2 (k4_pay1 (F := F)) := by
  unfold sout4_A_0 kernelRun4_A
  dsimp only
  sl_unfold_words
  rw [View.canon_cons_unit_zero (S := S2048x40) offs4_zero]
  simp only [View.readAt_eq_ld, w0.read_unread, w1.read_unread, w2.read_unread, View.ld_unit_zero (S := S2048x2048) offs4_zero,
    View.ld_unit_zero (S := S2048x40) offs4_zero, View.ld_unit_zero (S := S2048x1) offs4_zero, View.ld_unit_zero (S := S1x40) offs4_zero,
    View.readCov_unit_zero (S := S2048x40) _ offs4_zero]

set_option maxHeartbeats 400000 in

theorem sout4_B_0_eq (hc0 : ¬cond4_0 i) (hc1 : ¬cond4_1 i)
    (x0 : Vec F S2048x2048 .bf16) (x1 : Vec F S2048x40 .f32) (x2 : Vec F S2048x1 .f32) (xs : Vec F S2048x40 .f32) :
    sout4_B_0 c i a0 w0 a1 w1 a2 w2 a3 w3 a4 w4 a5 w5 a6 w6 sc wsc hc0 hc1 x0 x1 x2 xs = k4_pay2 x0 x1 x2 xs := by
  unfold sout4_B_0 kernelRun4_B
  dsimp only
  sl_unfold_words
  rw [View.canon_unit_zero (S := S2048x40) offs4_zero]
  simp only [View.readAt_eq_ld, w0.read_unread, w1.read_unread, w2.read_unread, wsc.read_unread, View.ld_unit_zero (S := S2048x2048) offs4_zero,
    View.ld_unit_zero (S := S2048x40) offs4_zero, View.ld_unit_zero (S := S2048x1) offs4_zero, View.ld_unit_zero (S := S1x40) offs4_zero,
    View.readCov_unit_zero (S := S2048x40) _ offs4_zero]

set_option maxHeartbeats 400000 in

theorem sout4_C_0_eq (hc0 : ¬cond4_0 i) (hc1 : cond4_1 i)
    (x0 : Vec F S2048x2048 .bf16) (x1 : Vec F S2048x40 .f32) (x2 : Vec F S2048x1 .f32) (x3 : Vec F S2048x40 .f32) (x4 : Vec F S2048x1 .f32)
    (x5 : Vec F S1x40 .f32) (xs : Vec F S2048x40 .f32) :
    sout4_C_0 c i a0 w0 a1 w1 a2 w2 a3 w3 a4 w4 a5 w5 a6 w6 sc wsc hc0 hc1 x0 x1 x2 x3 x4 x5 xs = k4_pay2 x0 x1 x2 xs := by
  unfold sout4_C_0 kernelRun4_C
  dsimp only
  sl_unfold_words
  rw [View.canon_unit_zero (S := S2048x40) offs4_zero]
  simp only [View.readAt_eq_ld, w0.read_unread, w1.read_unread, w2.read_unread, wsc.read_unread, View.ld_unit_zero (S := S2048x2048) offs4_zero,
    View.ld_unit_zero (S := S2048x40) offs4_zero, View.ld_unit_zero (S := S2048x1) offs4_zero, View.ld_unit_zero (S := S1x40) offs4_zero,
    View.readCov_unit_zero (S := S2048x40) _ offs4_zero]

set_option maxHeartbeats 400000 in

theorem out4_C_6_eq (hc0 : ¬cond4_0 i) (hc1 : cond4_1 i)
    (x0 : Vec F S2048x2048 .bf16) (x1 : Vec F S2048x40 .f32) (x2 : Vec F S2048x1 .f32) (x3 : Vec F S2048x40 .f32) (x4 : Vec F S2048x1 .f32)
    (x5 : Vec F S1x40 .f32) (xs : Vec F S2048x40 .f32) :
    out4_C_6 c i a0 w0 a1 w1 a2 w2 a3 w3 a4 w4 a5 w5 a6 w6 sc wsc hc0 hc1 x0 x1 x2 x3 x4 x5 xs = k4_pay3 x4 x3 (k4_pay2 x0 x1 x2 xs) x5 := by
  unfold out4_C_6 kernelRun4_C
  dsimp only
  sl_unfold_words
  rw [View.canon_unit_zero (S := S2048x40) offs4_zero]
  simp only [View.readAt_eq_ld, w0.read_unread, w1.read_unread, w2.read_unread, w3.read_unread, w4.read_unread, w5.read_unread, wsc.read_unread, View.ld_unit_zero (S := S2048x2048) offs4_zero,
    View.ld_unit_zero (S := S2048x40) offs4_zero, View.ld_unit_zero (S := S2048x1) offs4_zero, View.ld_unit_zero (S := S1x40) offs4_zero,
    View.readCov_unit_zero (S := S2048x40) _ offs4_zero]

end Cert.KernelIdeal.Hand

end
-- ==== Proof.KI.RunVals.lean ====
import proofs.«111342_j55946243997874_2_alg».proof.Proof.Gen.KernelIdeal.Launch
import proofs.«111342_j55946243997874_2_alg».proof.Proof.Gen.KernelIdeal.Skeleton
import proofs.«111342_j55946243997874_2_alg».proof.Proof.Gen.KernelIdeal.Points
import proofs.«111342_j55946243997874_2_alg».proof.Proof.KI.Region0
import proofs.«111342_j55946243997874_2_alg».proof.Proof.KI.Region1
import proofs.«111342_j55946243997874_2_alg».proof.Proof.KI.Region2
import proofs.«111342_j55946243997874_2_alg».proof.Proof.KI.Region3
import proofs.«111342_j55946243997874_2_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)

abbrev V0 : (c : Dev nD) → (b : Ref sig .tc) → Buf (Elt F) ((c : Thread nD τ).loc b) := fun c b => W0 m c b

def W1 (c : Dev nD) : Valuation τ sig (Elt F) :=
  Function.update (Function.update (W0 m c) main_v0_0 ((dat0 (V0 m) c).arrAt 1 cfg0.N)) main_v0_1 ((dat0 (V0 m) c).arrAt 2 cfg0.N)
abbrev V1 : (c : Dev nD) → (b : Ref sig .tc) → Buf (Elt F) ((c : Thread nD τ).loc b) := fun c b => W1 m c b

def W2 (c : Dev nD) : Valuation τ sig (Elt F) :=
  Function.update (W1 m c) main_v1 ((dat1 (V1 m) c).arrAt 2 cfg1.N)
abbrev V2 : (c : Dev nD) → (b : Ref sig .tc) → Buf (Elt F) ((c : Thread nD τ).loc b) := fun c b => W2 m c b

def W3 (c : Dev nD) : Valuation τ sig (Elt F) := StableHlo.after hostOps2 (W2 m c)
abbrev V3 : (c : Dev nD) → (b : Ref sig .tc) → Buf (Elt F) ((c : Thread nD τ).loc b) := fun c b => W3 m c b

def W4 (c : Dev nD) : Valuation τ sig (Elt F) :=
  Function.update (W3 m c) main_v3 ((dat2 (V3 m) c).arrAt 6 cfg2.N)
abbrev V4 : (c : Dev nD) → (b : Ref sig .tc) → Buf (Elt F) ((c : Thread nD τ).loc b) := fun c b => W4 m c b

def W5 (c : Dev nD) : Valuation τ sig (Elt F) :=
  Function.update (W4 m c) main_v4 ((dat3 (V4 m) c).arrAt 2 cfg3.N)
abbrev V5 : (c : Dev nD) → (b : Ref sig .tc) → Buf (Elt F) ((c : Thread nD τ).loc b) := fun c b => W5 m c b

def W6 (c : Dev nD) : Valuation τ sig (Elt F) := StableHlo.after hostOps4 (W5 m c)
abbrev V6 : (c : Dev nD) → (b : Ref sig .tc) → Buf (Elt F) ((c : Thread nD τ).loc b) := fun c b => W6 m c b

def W7 (c : Dev nD) : Valuation τ sig (Elt F) :=
  Function.update (W6 m c) main_v6 ((dat4 (V6 m) c).arrAt 6 cfg4.N)
abbrev V7 : (c : Dev nD) → (b : Ref sig .tc) → Buf (Elt F) ((c : Thread nD τ).loc b) := fun c b => W7 m c b

theorem reshape2_fresh : (hostOps2 : List (HloOp τ sig (Elt F))).Forall fun op => op.fresh = ∅ := by
  simp only [List.Forall]; repeat' constructor
theorem reshape4_fresh : (hostOps4 : List (HloOp τ sig (Elt F))).Forall fun op => op.fresh = ∅ := by
  simp only [List.Forall]; repeat' constructor

theorem reshape2_writes : (hostOps2 : List (HloOp τ sig (Elt F))).Forall fun op => op.writes ⊆ (([main_v2] : List (Ref sig .tc)).map (Proc.devRef (τ := τ) .tc)).toFinset := by
  simp only [List.Forall, StableHlo.reshape_writes, Finset.singleton_subset_iff, List.mem_toFinset]
  exact List.mem_map_of_mem (by decide)

theorem reshape4_writes : (hostOps4 : List (HloOp τ sig (Elt F))).Forall fun op => op.writes ⊆ (([main_v5] : List (Ref sig .tc)).map (Proc.devRef (τ := τ) .tc)).toFinset := by
  simp only [List.Forall, StableHlo.reshape_writes, Finset.singleton_subset_iff, List.mem_toFinset]
  exact List.mem_map_of_mem (by decide)

theorem W1_of (c : Dev nD) (r : Ref sig .tc) (h : r ∉ ([main_v0_0, main_v0_1] : List (Ref sig .tc))) :
    W1 m c (Proc.devRef .tc r) = W0 m c (Proc.devRef .tc r) := by
  unfold W1
  rw [Function.update_of_ne (StableHlo.devRef_ne_of_ne (List.ne_of_not_mem_cons (List.not_mem_of_not_mem_cons h))),
    Function.update_of_ne (StableHlo.devRef_ne_of_ne (List.ne_of_not_mem_cons h))]
theorem W2_of (c : Dev nD) (r : Ref sig .tc) (h : r ∉ ([main_v1] : List (Ref sig .tc))) :
    W2 m c (Proc.devRef .tc r) = W1 m c (Proc.devRef .tc r) := by
  unfold W2; rw [Function.update_of_ne (StableHlo.devRef_ne_of_ne (List.ne_of_not_mem_cons h))]
theorem W3_of (c : Dev nD) (r : Ref sig .tc) (h : r ∉ ([main_v2] : List (Ref sig .tc))) :
    W3 m c (Proc.devRef .tc r) = W2 m c (Proc.devRef .tc r) :=
  StableHlo.after_of_writes_sub hostOps2 _ reshape2_writes h
theorem W4_of (c : Dev nD) (r : Ref sig .tc) (h : r ∉ ([main_v3] : List (Ref sig .tc))) :
    W4 m c (Proc.devRef .tc r) = W3 m c (Proc.devRef .tc r) := by
  unfold W4; rw [Function.update_of_ne (StableHlo.devRef_ne_of_ne (List.ne_of_not_mem_cons h))]
theorem W5_of (c : Dev nD) (r : Ref sig .tc) (h : r ∉ ([main_v4] : List (Ref sig .tc))) :
    W5 m c (Proc.devRef .tc r) = W4 m c (Proc.devRef .tc r) := by
  unfold W5; rw [Function.update_of_ne (StableHlo.devRef_ne_of_ne (List.ne_of_not_mem_cons h))]
theorem W6_of (c : Dev nD) (r : Ref sig .tc) (h : r ∉ ([main_v5] : List (Ref sig .tc))) :
    W6 m c (Proc.devRef .tc r) = W5 m c (Proc.devRef .tc r) :=
  StableHlo.after_of_writes_sub hostOps4 _ reshape4_writes h
theorem W7_of (c : Dev nD) (r : Ref sig .tc) (h : r ∉ ([main_v6] : List (Ref sig .tc))) :
    W7 m c (Proc.devRef .tc r) = W6 m c (Proc.devRef .tc r) := by
  unfold W7; rw [Function.update_of_ne (StableHlo.devRef_ne_of_ne (List.ne_of_not_mem_cons h))]

theorem W1_main_v0_0 (c : Dev nD) : W1 m c (Proc.devRef .tc main_v0_0) = (dat0 (V0 m) c).arrAt 1 cfg0.N := by
  unfold W1
  rw [Function.update_of_ne (StableHlo.devRef_ne_of_ne (by decide))]
  exact Function.update_self ..
theorem W1_main_v0_1 (c : Dev nD) : W1 m c (Proc.devRef .tc main_v0_1) = (dat0 (V0 m) c).arrAt 2 cfg0.N := by
  unfold W1; exact Function.update_self ..
theorem W2_main_v1 (c : Dev nD) : W2 m c (Proc.devRef .tc main_v1) = (dat1 (V1 m) c).arrAt 2 cfg1.N := by
  unfold W2; exact Function.update_self ..

theorem W3_main_v2 (c : Dev nD) :
    W3 m c (Proc.devRef .tc main_v2) = shapeCast S1x16 (W2 m c (Proc.devRef .tc main_arg3)) shapeCasts_S16_S1x16 := by
  unfold W3
  after_results
  rfl
theorem W4_main_v3 (c : Dev nD) : W4 m c (Proc.devRef .tc main_v3) = (dat2 (V3 m) c).arrAt 6 cfg2.N := by
  unfold W4; exact Function.update_self ..
theorem W5_main_v4 (c : Dev nD) : W5 m c (Proc.devRef .tc main_v4) = (dat3 (V4 m) c).arrAt 2 cfg3.N := by
  unfold W5; exact Function.update_self ..

theorem W6_main_v5 (c : Dev nD) :
    W6 m c (Proc.devRef .tc main_v5) = shapeCast S1x40 (W5 m c (Proc.devRef .tc main_arg5)) shapeCasts_S40_S1x40 := by
  unfold W6
  after_results
  rfl
theorem W7_main_v6 (c : Dev nD) : W7 m c (Proc.devRef .tc main_v6) = (dat4 (V6 m) c).arrAt 6 cfg4.N := by
  unfold W7; exact Function.update_self ..

theorem W7_main_arg0 (c : Dev nD) : W7 m c (Proc.devRef .tc main_arg0) = m ((c : Thread nD τ).loc main_arg0) :=
  (W7_of m c main_arg0 (by decide)).trans <| (W6_of m c main_arg0 (by decide)).trans <| (W5_of m c main_arg0 (by decide)).trans <|
    (W4_of m c main_arg0 (by decide)).trans <| (W3_of m c main_arg0 (by decide)).trans <| (W2_of m c main_arg0 (by decide)).trans <|
    (W1_of m c main_arg0 (by decide)).trans rfl
theorem W7_main_arg1 (c : Dev nD) : W7 m c (Proc.devRef .tc main_arg1) = m ((c : Thread nD τ).loc main_arg1) :=
  (W7_of m c main_arg1 (by decide)).trans <| (W6_of m c main_arg1 (by decide)).trans <| (W5_of m c main_arg1 (by decide)).trans <|
    (W4_of m c main_arg1 (by decide)).trans <| (W3_of m c main_arg1 (by decide)).trans <| (W2_of m c main_arg1 (by decide)).trans <|
    (W1_of m c main_arg1 (by decide)).trans rfl
theorem W7_main_arg2 (c : Dev nD) : W7 m c (Proc.devRef .tc main_arg2) = m ((c : Thread nD τ).loc main_arg2) :=
  (W7_of m c main_arg2 (by decide)).trans <| (W6_of m c main_arg2 (by decide)).trans <| (W5_of m c main_arg2 (by decide)).trans <|
    (W4_of m c main_arg2 (by decide)).trans <| (W3_of m c main_arg2 (by decide)).trans <| (W2_of m c main_arg2 (by decide)).trans <|
    (W1_of m c main_arg2 (by decide)).trans rfl
theorem W7_main_arg3 (c : Dev nD) : W7 m c (Proc.devRef .tc main_arg3) = m ((c : Thread nD τ).loc main_arg3) :=
  (W7_of m c main_arg3 (by decide)).trans <| (W6_of m c main_arg3 (by decide)).trans <| (W5_of m c main_arg3 (by decide)).trans <|
    (W4_of m c main_arg3 (by decide)).trans <| (W3_of m c main_arg3 (by decide)).trans <| (W2_of m c main_arg3 (by decide)).trans <|
    (W1_of m c main_arg3 (by decide)).trans rfl
theorem W7_main_arg4 (c : Dev nD) : W7 m c (Proc.devRef .tc main_arg4) = m ((c : Thread nD τ).loc main_arg4) :=
  (W7_of m c main_arg4 (by decide)).trans <| (W6_of m c main_arg4 (by decide)).trans <| (W5_of m c main_arg4 (by decide)).trans <|
    (W4_of m c main_arg4 (by decide)).trans <| (W3_of m c main_arg4 (by decide)).trans <| (W2_of m c main_arg4 (by decide)).trans <|
    (W1_of m c main_arg4 (by decide)).trans rfl
theorem W7_main_arg5 (c : Dev nD) : W7 m c (Proc.devRef .tc main_arg5) = m ((c : Thread nD τ).loc main_arg5) :=
  (W7_of m c main_arg5 (by decide)).trans <| (W6_of m c main_arg5 (by decide)).trans <| (W5_of m c main_arg5 (by decide)).trans <|
    (W4_of m c main_arg5 (by decide)).trans <| (W3_of m c main_arg5 (by decide)).trans <| (W2_of m c main_arg5 (by decide)).trans <|
    (W1_of m c main_arg5 (by decide)).trans rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Run.lean ====
import proofs.«111342_j55946243997874_2_alg».proof.Proof.Gen.KernelIdeal.Launch
import proofs.«111342_j55946243997874_2_alg».proof.Proof.Gen.KernelIdeal.Skeleton
import proofs.«111342_j55946243997874_2_alg».proof.Proof.Gen.KernelIdeal.Points
import proofs.«111342_j55946243997874_2_alg».proof.Proof.KI.Region0
import proofs.«111342_j55946243997874_2_alg».proof.Proof.KI.Region1
import proofs.«111342_j55946243997874_2_alg».proof.Proof.KI.Region2
import proofs.«111342_j55946243997874_2_alg».proof.Proof.KI.Region3
import proofs.«111342_j55946243997874_2_alg».proof.Proof.KI.Region4
import proofs.«111342_j55946243997874_2_alg».proof.Proof.KI.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Shared

variable (V : (c : Dev nD) → (b : Ref sig .tc) → Buf (Elt F) ((c : Thread nD τ).loc b))

theorem share2_0 (c : Dev nD) : (dat2 V c).share 0 = fullShare := by
  unfold Dat.share; rw [if_neg (by decide), q2_0]
theorem share2_1 (c : Dev nD) : (dat2 V c).share 1 = PosShare.left fullShare := by
  unfold Dat.share; rw [if_neg (by decide), q2_1]
theorem share2_2 (c : Dev nD) : (dat2 V c).share 2 = PosShare.left fullShare := by
  unfold Dat.share; rw [if_neg (by decide), q2_2]
theorem share2_3 (c : Dev nD) : (dat2 V c).share 3 = PosShare.right fullShare := by
  unfold Dat.share; rw [if_neg (by decide), q2_3]
theorem share2_4 (c : Dev nD) : (dat2 V c).share 4 = PosShare.right fullShare := by
  unfold Dat.share; rw [if_neg (by decide), q2_4]
theorem share2_5 (c : Dev nD) : (dat2 V c).share 5 = fullShare := by
  unfold Dat.share; rw [if_neg (by decide), q2_5]

theorem share2_6 (c : Dev nD) : (dat2 V c).share 6 = fullShare := by
  unfold Dat.share; rw [if_pos (by decide)]

theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_v0_0) ↦{fullShare} Vc main_v0_0)
          ∗ (((c : Thread nD τ).loc main_v1) ↦{fullShare} Vc main_v1)
          ∗ (((c : Thread nD τ).loc main_v0_1) ↦{fullShare} Vc main_v0_1)
          ∗ (((c : Thread nD τ).loc main_v2) ↦{fullShare} Vc main_v2)
          ∗ (((c : Thread nD τ).loc main_v3) ↦{fullShare} Vc main_v3)) := by
  unfold Pipeline.arrBufs
  exact bigSep_eq_bigSepL_of_eq [main_v0_0, main_v1, main_v0_1, main_v2, main_v3] (by decide) (by decide) _

theorem arrays2_eq (c : Dev nD) (Fw : (w : Fin cfg2.W) → Buf (Elt F) ((cfg2.win w).arr.view.loc (c : Thread nD τ))) :
    ((dat2 V c).arrays Fw : sProp 𝕄)
      = iprop((((c : Thread nD τ).loc main_v0_0) ↦{fullShare} Fw 0)
          ∗ (((c : Thread nD τ).loc main_v1) ↦{PosShare.left fullShare} Fw 1)
          ∗ (((c : Thread nD τ).loc main_v0_1) ↦{PosShare.left fullShare} Fw 2)
          ∗ (((c : Thread nD τ).loc main_v1) ↦{PosShare.right fullShare} Fw 3)
          ∗ (((c : Thread nD τ).loc main_v0_1) ↦{PosShare.right fullShare} Fw 4)
          ∗ (((c : Thread nD τ).loc main_v2) ↦{fullShare} Fw 5)
          ∗ (((c : Thread nD τ).loc main_v3) ↦{fullShare} Fw 6)) := by
  unfold Dat.arrays
  rw [bigSep_W2, share2_0, share2_1, share2_2, share2_3, share2_4, share2_5, share2_6,
    (arr_whole2 0).set_eq_univ, (arr_whole2 1).set_eq_univ, (arr_whole2 2).set_eq_univ,
    (arr_whole2 5).set_eq_univ, (arr_whole2 6).set_eq_univ]

theorem arrays_of_arrBufs2 (c : Dev nD) (Vc : (b : Ref sig .tc) → Buf (Elt F) ((c : Thread nD τ).loc b))
    (Fw : (w : Fin cfg2.W) → Buf (Elt F) ((cfg2.win w).arr.view.loc (c : Thread nD τ)))
    (h0 : Fw 0 = Vc main_v0_0) (h1 : Fw 1 = Vc main_v1) (h2 : Fw 2 = Vc main_v0_1) (h3 : Fw 3 = Vc main_v1) (h4 : Fw 4 = Vc main_v0_1) (h5 : Fw 5 = Vc main_v2) (h6 : Fw 6 = Vc main_v3) :
    (Pipeline.arrBufs (Ix := Unit) (Name := ℕ) (U := UR sig nD τ) (Lvl := ℕ) spec2 c Vc : sProp 𝕄) ⊢ (dat2 V c).arrays Fw := by
  rw [arrBufs2_eq, arrays2_eq, h0, h1, h2, h3, h4, h5, h6]
  iintro ⟨H0, H1, H2, H5, H6⟩
  ihave H1' := (pointsTo_share (PosShare.mem_left_op_right fullShare)).1 $$ H1
  icases H1' with ⟨H1l, H1r⟩
  ihave H2' := (pointsTo_share (PosShare.mem_left_op_right fullShare)).1 $$ H2
  icases H2' with ⟨H2l, H2r⟩
  isplitl [H0]; · iexact H0
  isplitl [H1l]; · iexact H1l
  isplitl [H2l]; · iexact H2l
  isplitl [H1r]; · iexact H1r
  isplitl [H2r]; · iexact H2r
  isplitl [H5]; · iexact H5
  iexact H6

theorem arrBufs_of_arraysAt2 (c : Dev nD) (Vc : (b : Ref sig .tc) → Buf (Elt F) ((c : Thread nD τ).loc b))
    (Fw : (w : Fin cfg2.W) → Buf (Elt F) ((cfg2.win w).arr.view.loc (c : Thread nD τ)))
    (h0 : Fw 0 = Vc main_v0_0) (h1 : Fw 1 = Vc main_v1) (h2 : Fw 2 = Vc main_v0_1) (h3 : Fw 3 = Vc main_v1) (h4 : Fw 4 = Vc main_v0_1) (h5 : Fw 5 = Vc main_v2) (h6 : Fw 6 = Vc main_v3) :
    ((dat2 V c).arrays Fw : sProp 𝕄) ⊢ Pipeline.arrBufs (Ix := Unit) (Name := ℕ) (U := UR sig nD τ) (Lvl := ℕ) spec2 c Vc := by
  rw [arrBufs2_eq, arrays2_eq, h0, h1, h2, h3, h4, h5, h6]
  iintro ⟨H0, H1l, H2l, H1r, H2r, H5, H6⟩
  isplitl [H0]; · iexact H0
  isplitl [H1l H1r]
  · iapply (pointsTo_share (PosShare.mem_left_op_right fullShare)).2
    isplitl [H1l]; · iexact H1l
    iexact H1r
  isplitl [H2l H2r]
  · iapply (pointsTo_share (PosShare.mem_left_op_right fullShare)).2
    isplitl [H2l]; · iexact H2l
    iexact H2r
  isplitl [H5]; · iexact H5
  iexact H6

theorem share4_0 (c : Dev nD) : (dat4 V c).share 0 = fullShare := by
  unfold Dat.share; rw [if_neg (by decide), q4_0]
theorem share4_1 (c : Dev nD) : (dat4 V c).share 1 = PosShare.left fullShare := by
  unfold Dat.share; rw [if_neg (by decide), q4_1]
theorem share4_2 (c : Dev nD) : (dat4 V c).share 2 = PosShare.left fullShare := by
  unfold Dat.share; rw [if_neg (by decide), q4_2]
theorem share4_3 (c : Dev nD) : (dat4 V c).share 3 = PosShare.right fullShare := by
  unfold Dat.share; rw [if_neg (by decide), q4_3]
theorem share4_4 (c : Dev nD) : (dat4 V c).share 4 = PosShare.right fullShare := by
  unfold Dat.share; rw [if_neg (by decide), q4_4]
theorem share4_5 (c : Dev nD) : (dat4 V c).share 5 = fullShare := by
  unfold Dat.share; rw [if_neg (by decide), q4_5]

theorem share4_6 (c : Dev nD) : (dat4 V c).share 6 = fullShare := by
  unfold Dat.share; rw [if_pos (by decide)]

theorem arrBufs4_eq (c : Dev nD) (Vc : (b : Ref sig .tc) → Buf (Elt F) ((c : Thread nD τ).loc b)) :
    (Pipeline.arrBufs (Ix := Unit) (Name := ℕ) (U := UR sig nD τ) (Lvl := ℕ) spec4 c Vc : sProp 𝕄)
      = iprop((((c : Thread nD τ).loc main_v0_0) ↦{fullShare} Vc main_v0_0)
          ∗ (((c : Thread nD τ).loc main_v4) ↦{fullShare} Vc main_v4)
          ∗ (((c : Thread nD τ).loc main_v0_1) ↦{fullShare} Vc main_v0_1)
          ∗ (((c : Thread nD τ).loc main_v5) ↦{fullShare} Vc main_v5)
          ∗ (((c : Thread nD τ).loc main_v6) ↦{fullShare} Vc main_v6)) := by
  unfold Pipeline.arrBufs
  exact bigSep_eq_bigSepL_of_eq [main_v0_0, main_v4, main_v0_1, main_v5, main_v6] (by decide) (by decide) _

theorem arrays4_eq (c : Dev nD) (Fw : (w : Fin cfg4.W) → Buf (Elt F) ((cfg4.win w).arr.view.loc (c : Thread nD τ))) :
    ((dat4 V c).arrays Fw : sProp 𝕄)
      = iprop((((c : Thread nD τ).loc main_v0_0) ↦{fullShare} Fw 0)
          ∗ (((c : Thread nD τ).loc main_v4) ↦{PosShare.left fullShare} Fw 1)
          ∗ (((c : Thread nD τ).loc main_v0_1) ↦{PosShare.left fullShare} Fw 2)
          ∗ (((c : Thread nD τ).loc main_v4) ↦{PosShare.right fullShare} Fw 3)
          ∗ (((c : Thread nD τ).loc main_v0_1) ↦{PosShare.right fullShare} Fw 4)
          ∗ (((c : Thread nD τ).loc main_v5) ↦{fullShare} Fw 5)
          ∗ (((c : Thread nD τ).loc main_v6) ↦{fullShare} Fw 6)) := by
  unfold Dat.arrays
  rw [bigSep_W4, share4_0, share4_1, share4_2, share4_3, share4_4, share4_5, share4_6,
    (arr_whole4 0).set_eq_univ, (arr_whole4 1).set_eq_univ, (arr_whole4 2).set_eq_univ,
    (arr_whole4 5).set_eq_univ, (arr_whole4 6).set_eq_univ]

theorem arrays_of_arrBufs4 (c : Dev nD) (Vc : (b : Ref sig .tc) → Buf (Elt F) ((c : Thread nD τ).loc b))
    (Fw : (w : Fin cfg4.W) → Buf (Elt F) ((cfg4.win w).arr.view.loc (c : Thread nD τ)))
    (h0 : Fw 0 = Vc main_v0_0) (h1 : Fw 1 = Vc main_v4) (h2 : Fw 2 = Vc main_v0_1) (h3 : Fw 3 = Vc main_v4) (h4 : Fw 4 = Vc main_v0_1) (h5 : Fw 5 = Vc main_v5) (h6 : Fw 6 = Vc main_v6) :
    (Pipeline.arrBufs (Ix := Unit) (Name := ℕ) (U := UR sig nD τ) (Lvl := ℕ) spec4 c Vc : sProp 𝕄) ⊢ (dat4 V c).arrays Fw := by
  rw [arrBufs4_eq, arrays4_eq, h0, h1, h2, h3, h4, h5, h6]
  iintro ⟨H0, H1, H2, H5, H6⟩
  ihave H1' := (pointsTo_share (PosShare.mem_left_op_right fullShare)).1 $$ H1
  icases H1' with ⟨H1l, H1r⟩
  ihave H2' := (pointsTo_share (PosShare.mem_left_op_right fullShare)).1 $$ H2
  icases H2' with ⟨H2l, H2r⟩
  isplitl [H0]; · iexact H0
  isplitl [H1l]; · iexact H1l
  isplitl [H2l]; · iexact H2l
  isplitl [H1r]; · iexact H1r
  isplitl [H2r]; · iexact H2r
  isplitl [H5]; · iexact H5
  iexact H6

theorem arrBufs_of_arraysAt4 (c : Dev nD) (Vc : (b : Ref sig .tc) → Buf (Elt F) ((c : Thread nD τ).loc b))
    (Fw : (w : Fin cfg4.W) → Buf (Elt F) ((cfg4.win w).arr.view.loc (c : Thread nD τ)))
    (h0 : Fw 0 = Vc main_v0_0) (h1 : Fw 1 = Vc main_v4) (h2 : Fw 2 = Vc main_v0_1) (h3 : Fw 3 = Vc main_v4) (h4 : Fw 4 = Vc main_v0_1) (h5 : Fw 5 = Vc main_v5) (h6 : Fw 6 = Vc main_v6) :
    ((dat4 V c).arrays Fw : sProp 𝕄) ⊢ Pipeline.arrBufs (Ix := Unit) (Name := ℕ) (U := UR sig nD τ) (Lvl := ℕ) spec4 c Vc := by
  rw [arrBufs4_eq, arrays4_eq, h0, h1, h2, h3, h4, h5, h6]
  iintro ⟨H0, H1l, H2l, H1r, H2r, H5, H6⟩
  isplitl [H0]; · iexact H0
  isplitl [H1l H1r]
  · iapply (pointsTo_share (PosShare.mem_left_op_right fullShare)).2
    isplitl [H1l]; · iexact H1l
    iexact H1r
  isplitl [H2l H2r]
  · iapply (pointsTo_share (PosShare.mem_left_op_right fullShare)).2
    isplitl [H2l]; · iexact H2l
    iexact H2r
  isplitl [H5]; · iexact H5
  iexact H6

end Shared

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
  | ⟨3, _⟩ => fun c => dat3 (V4 m) c
  | ⟨4, _⟩ => fun c => dat4 (V6 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem owesAt_of_owes {cfg : Cfg sig Λ₀} {c : Dev nD} (dat : Dat τ (Elt F) Unit ℕ (UR sig nD τ) ℕ cfg c)
    (ho : dat.owed 0 = 0) (hr : dat.recorded 0 = Set.univ) :
    (iprop(∃ W, owes (c : Thread nD τ) (0 : CellTallies nD τ sig Unit) W) : sProp 𝕄) ⊢ dat.owesAt () 0 := by
  unfold Dat.owesAt Pipeline.owesWithin Dat.bound
  rw [ho, hr]
  iintro ⟨%W, HO⟩; iexists W; isplitr
  · ipureintro; exact fun _ _ => Or.inl trivial
  iexact HO

theorem owes_of_owesAt {cfg : Cfg sig Λ₀} {c : Dev nD} (dat : Dat τ (Elt F) Unit ℕ (UR sig nD τ) ℕ cfg c)
    (ho : dat.owed (Fin.last cfg.N) = 0) :
    dat.owesAt () (Fin.last cfg.N) ⊢ (iprop(∃ W, owes (c : Thread nD τ) (0 : CellTallies nD τ sig Unit) W) : sProp 𝕄) := by
  unfold Dat.owesAt Pipeline.owesWithin
  rw [ho]
  iintro ⟨%W, -, HO⟩; iexists W; iexact HO

theorem in_of_ΦA {gr W : Nat} (spec : Fin W → Pipeline.WinSpec sig gr) (c : Dev nD) (P Φ0 : sProp 𝕄)
    (h : Pipeline.ΦA spec c ⊢ Φ0) :
    iprop((∃ r, prngReg c r) ∗ P ∗ Pipeline.scopedRest spec c) ⊢ Φ0 := by
  have h' : iprop((∃ r, prngReg c r) ∗ P ∗ Pipeline.scopedRest spec c) ⊢ (Pipeline.ΦA spec c : sProp 𝕄) := by
    unfold Pipeline.ΦA
    iintro ⟨Hp, -, Hr⟩
    isplitl [Hr]; · iexact Hr
    iexact Hp
  exact h'.trans h

theorem out_of_ΦA {gr W : Nat} (spec : Fin W → Pipeline.WinSpec sig gr) (c : Dev nD) (ΦN : sProp 𝕄)
    (h : ΦN ⊢ Pipeline.ΦA spec c) :
    ΦN ⊢ iprop((∃ r, prngReg c r) ∗ Pipeline.ownSems0 (fun k : PEmpty => k.elim) c ∗ Pipeline.scopedRest spec c) := by
  have h' : (Pipeline.ΦA spec c : sProp 𝕄)
      ⊢ iprop((∃ r, prngReg c r) ∗ Pipeline.ownSems0 (fun k : PEmpty => k.elim) c ∗ Pipeline.scopedRest spec c) := by
    rw [Pipeline.ownSems0_none]; unfold Pipeline.ΦA
    iintro ⟨Hr, Hp⟩
    isplitl [Hp]; · iexact Hp
    isplitr; · iempintro
    iexact Hr
  exact h.trans h'

theorem hF0 (c : Dev nD) : ∀ w : Fin cfg0.W, (dat0 (V0 m) c).arrAt w cfg0.N = V1 m c (Pipeline.arrRef spec0 w)
  | ⟨0, _⟩ => ((dat0 (V0 m) c).arrAt_in 0 rfl _).trans ((A_eq0 (V0 m) c 0).trans (W1_of m c main_arg1 (by decide)).symm)
  | ⟨1, _⟩ => (W1_main_v0_0 m c).symm
  | ⟨2, _⟩ => (W1_main_v0_1 m c).symm

theorem hrest0 (c : Dev nD) : ∀ b, b ∉ Finset.univ.image (Pipeline.arrRef spec0) → V1 m c b = V0 m c b :=
  fun b hb => W1_of m c b fun h => by
    rcases List.mem_cons.mp h with h | h
    · exact hb (Finset.mem_image.mpr ⟨1, Finset.mem_univ _, h.symm⟩)
    · exact hb (Finset.mem_image.mpr ⟨2, Finset.mem_univ _, (List.mem_singleton.mp h).symm⟩)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun c t => owed_eq0 (V0 m) c t
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V0 m) c w) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m 0 c) (owed_eq0 (V0 m) c 0) (recorded_eq0 (V0 m) c 0))
      iexact HO
    isplitl [Hp]; · iexact Hp
    iexact Hrest
  hin c := in_of_ΦA spec0 c _ _ (hin0 (V0 m) c)
  hout c := out_of_ΦA spec0 c _ (hout0 (V0 m) c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V0 m) c w)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m 0 c) (owed_eq0 (V0 m) c _))
    iexact HO

theorem hF1 (c : Dev nD) : ∀ w : Fin cfg1.W, (dat1 (V1 m) c).arrAt w cfg1.N = V2 m c (Pipeline.arrRef spec1 w)
  | ⟨0, _⟩ => ((dat1 (V1 m) c).arrAt_in 0 rfl _).trans ((A_eq1 (V1 m) c 0).trans (W2_of m c main_arg0 (by decide)).symm)
  | ⟨1, _⟩ => ((dat1 (V1 m) c).arrAt_in 1 rfl _).trans ((A_eq1 (V1 m) c 1).trans (W2_of m c main_arg2 (by decide)).symm)
  | ⟨2, _⟩ => (W2_main_v1 m c).symm

theorem hrest1 (c : Dev nD) : ∀ b, b ∉ Finset.univ.image (Pipeline.arrRef spec1) → V2 m c b = V1 m c b :=
  fun b hb => W2_of m c b fun h => hb (Finset.mem_image.mpr ⟨2, Finset.mem_univ _, (List.mem_singleton.mp h).symm⟩)

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun c t => owed_eq1 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V1 m) c w) (V1 m c) fun w => A_eq1 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m 1 c) (owed_eq1 (V1 m) c 0) (recorded_eq1 (V1 m) c 0))
      iexact HO
    isplitl [Hp]; · iexact Hp
    iexact Hrest
  hin c := in_of_ΦA spec1 c _ _ (hin1 (V1 m) c)
  hout c := out_of_ΦA spec1 c _ (hout1 (V1 m) c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V1 m) c w)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m 1 c) (owed_eq1 (V1 m) c _))
    iexact HO

theorem held_split2 (c : Dev nD) (Wc : Valuation τ sig (Elt F)) :
    (StableHlo.held (c : Thread nD τ) (Pipeline.ucRefs τ sig) Wc : sProp 𝕄)
      = iprop(Pipeline.arrBufs (Ix := Unit) (Name := ℕ) (U := UR sig nD τ) (Lvl := ℕ) spec2 c (fun b => Wc b)
          ∗ Pipeline.unscopedRest (Ix := Unit) (Name := ℕ) (U := UR sig nD τ) (Lvl := ℕ) spec2 c (fun b => Wc b)) := by
  rw [← Pipeline.unscopedBufs_held (Ix := Unit) (Name := ℕ) (U := UR sig nD τ) (Lvl := ℕ) c Wc]
  exact Pipeline.unscopedBufs_split₀ cfgs 2 winFacts₀2.arr_unscoped c _

theorem hrest2 (c : Dev nD) : ∀ b, b ∉ Finset.univ.image (Pipeline.arrRef spec2) → V4 m c b = V3 m c b :=
  fun b hb => W4_of m c b fun h => hb (Finset.mem_image.mpr ⟨6, Finset.mem_univ _, (List.mem_singleton.mp h).symm⟩)

theorem entry_split2 (c : Dev nD) :
    (StableHlo.held (c : Thread nD τ) (Pipeline.ucRefs τ sig) (W3 m c) : sProp 𝕄)
      ⊢ iprop((pdats m 2 c).arrays ((pdats m 2 c).arrAt · 0)
          ∗ Pipeline.unscopedRest (Ix := Unit) (Name := ℕ) (U := UR sig nD τ) (Lvl := ℕ) spec2 c (V3 m c)) := by
  rw [held_split2]
  exact sep_mono (arrays_of_arrBufs2 (V3 m) c (V3 m c) ((dat2 (V3 m) c).arrAt · 0)
    (A_eq2 (V3 m) c 0) (A_eq2 (V3 m) c 1) (A_eq2 (V3 m) c 2) (A_eq2 (V3 m) c 3) (A_eq2 (V3 m) c 4) (A_eq2 (V3 m) c 5) (A_eq2 (V3 m) c 6)) .rfl

theorem exit_join2 (c : Dev nD) :
    iprop((pdats m 2 c).arrays ((pdats m 2 c).arrAt · cfg2.N)
        ∗ Pipeline.unscopedRest (Ix := Unit) (Name := ℕ) (U := UR sig nD τ) (Lvl := ℕ) spec2 c (V3 m c))
      ⊢ (StableHlo.held (c : Thread nD τ) (Pipeline.ucRefs τ sig) (W4 m c) : sProp 𝕄) := by
  rw [held_split2]
  refine sep_mono (arrBufs_of_arraysAt2 (V3 m) c (V4 m c) ((dat2 (V3 m) c).arrAt · cfg2.N)
      (((dat2 (V3 m) c).arrAt_in 0 rfl _).trans ((A_eq2 (V3 m) c 0).trans (W4_of m c main_v0_0 (by decide)).symm))
      (((dat2 (V3 m) c).arrAt_in 1 rfl _).trans ((A_eq2 (V3 m) c 1).trans (W4_of m c main_v1 (by decide)).symm))
      (((dat2 (V3 m) c).arrAt_in 2 rfl _).trans ((A_eq2 (V3 m) c 2).trans (W4_of m c main_v0_1 (by decide)).symm))
      (((dat2 (V3 m) c).arrAt_in 3 rfl _).trans ((A_eq2 (V3 m) c 3).trans (W4_of m c main_v1 (by decide)).symm))
      (((dat2 (V3 m) c).arrAt_in 4 rfl _).trans ((A_eq2 (V3 m) c 4).trans (W4_of m c main_v0_1 (by decide)).symm))
      (((dat2 (V3 m) c).arrAt_in 5 rfl _).trans ((A_eq2 (V3 m) c 5).trans (W4_of m c main_v2 (by decide)).symm))
      (W4_main_v3 m c).symm) (Entails.of_eq ?_)
  unfold Pipeline.unscopedRest
  exact bigSep_congr fun b hb => congrArg (fun x => (((c : Thread nD τ).loc b) ↦{fullShare} x : sProp 𝕄))
    (hrest2 m c b (Finset.mem_sdiff.mp hb).2).symm

set_option backward.isDefEq.respectTransparency.types false in

def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun c t => owed_eq2 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    iintro ⟨⟨Hub, Hp, HO⟩, -, -⟩
    ihave H := (entry_split2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m 2 c) (owed_eq2 (V3 m) c 0) (recorded_eq2 (V3 m) c 0))
      iexact HO
    isplitl [Hp]; · iexact Hp
    iexact Hrest
  hin c := in_of_ΦA spec2 c _ _ (hin2 (V3 m) c)
  hout c := out_of_ΦA spec2 c _ (hout2 (V3 m) c)
  hexit c := by
    iintro ⟨Ha, HO, HY, Hrest⟩
    imodintro
    isplitl [Ha Hrest]
    · iapply (exit_join2 m c); isplitl [Ha] <;> iassumption
    isplitl [HY]; · iexact HY
    iapply (owes_of_owesAt (pdats m 2 c) (owed_eq2 (V3 m) c _))
    iexact HO

theorem hF3 (c : Dev nD) : ∀ w : Fin cfg3.W, (dat3 (V4 m) c).arrAt w cfg3.N = V5 m c (Pipeline.arrRef spec3 w)
  | ⟨0, _⟩ => ((dat3 (V4 m) c).arrAt_in 0 rfl _).trans ((A_eq3 (V4 m) c 0).trans (W5_of m c main_v3 (by decide)).symm)
  | ⟨1, _⟩ => ((dat3 (V4 m) c).arrAt_in 1 rfl _).trans ((A_eq3 (V4 m) c 1).trans (W5_of m c main_arg4 (by decide)).symm)
  | ⟨2, _⟩ => (W5_main_v4 m c).symm

theorem hrest3 (c : Dev nD) : ∀ b, b ∉ Finset.univ.image (Pipeline.arrRef spec3) → V5 m c b = V4 m c b :=
  fun b hb => W5_of m c b fun h => hb (Finset.mem_image.mpr ⟨2, Finset.mem_univ _, (List.mem_singleton.mp h).symm⟩)

set_option backward.isDefEq.respectTransparency.types false in

def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun c t => owed_eq3 (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V4 m) c w) (V4 m c) fun w => A_eq3 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m 3 c) (owed_eq3 (V4 m) c 0) (recorded_eq3 (V4 m) c 0))
      iexact HO
    isplitl [Hp]; · iexact Hp
    iexact Hrest
  hin c := in_of_ΦA spec3 c _ _ (hin3 (V4 m) c)
  hout c := out_of_ΦA spec3 c _ (hout3 (V4 m) c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (V4 m) c w)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m 3 c) (owed_eq3 (V4 m) c _))
    iexact HO

abbrev Tₙ (c : Dev nD) : sProp 𝕄 := iprop(StableHlo.held (c : Thread nD τ) (Pipeline.ucRefs τ sig) (W7 m c) ∗ ∃ r, prngReg c r)

theorem held_split4 (c : Dev nD) (Wc : Valuation τ sig (Elt F)) :
    (StableHlo.held (c : Thread nD τ) (Pipeline.ucRefs τ sig) Wc : sProp 𝕄)
      = iprop(Pipeline.arrBufs (Ix := Unit) (Name := ℕ) (U := UR sig nD τ) (Lvl := ℕ) spec4 c (fun b => Wc b)
          ∗ Pipeline.unscopedRest (Ix := Unit) (Name := ℕ) (U := UR sig nD τ) (Lvl := ℕ) spec4 c (fun b => Wc b)) := by
  rw [← Pipeline.unscopedBufs_held (Ix := Unit) (Name := ℕ) (U := UR sig nD τ) (Lvl := ℕ) c Wc]
  exact Pipeline.unscopedBufs_split₀ cfgs 4 winFacts₀4.arr_unscoped c _

theorem hrest4 (c : Dev nD) : ∀ b, b ∉ Finset.univ.image (Pipeline.arrRef spec4) → V7 m c b = V6 m c b :=
  fun b hb => W7_of m c b fun h => hb (Finset.mem_image.mpr ⟨6, Finset.mem_univ _, (List.mem_singleton.mp h).symm⟩)

theorem entry_split4 (c : Dev nD) :
    (StableHlo.held (c : Thread nD τ) (Pipeline.ucRefs τ sig) (W6 m c) : sProp 𝕄)
      ⊢ iprop((pdats m 4 c).arrays ((pdats m 4 c).arrAt · 0)
          ∗ Pipeline.unscopedRest (Ix := Unit) (Name := ℕ) (U := UR sig nD τ) (Lvl := ℕ) spec4 c (V6 m c)) := by
  rw [held_split4]
  exact sep_mono (arrays_of_arrBufs4 (V6 m) c (V6 m c) ((dat4 (V6 m) c).arrAt · 0)
    (A_eq4 (V6 m) c 0) (A_eq4 (V6 m) c 1) (A_eq4 (V6 m) c 2) (A_eq4 (V6 m) c 3) (A_eq4 (V6 m) c 4) (A_eq4 (V6 m) c 5) (A_eq4 (V6 m) c 6)) .rfl

theorem exit_join4 (c : Dev nD) :
    iprop((pdats m 4 c).arrays ((pdats m 4 c).arrAt · cfg4.N)
        ∗ Pipeline.unscopedRest (Ix := Unit) (Name := ℕ) (U := UR sig nD τ) (Lvl := ℕ) spec4 c (V6 m c))
      ⊢ (StableHlo.held (c : Thread nD τ) (Pipeline.ucRefs τ sig) (W7 m c) : sProp 𝕄) := by
  rw [held_split4]
  refine sep_mono (arrBufs_of_arraysAt4 (V6 m) c (V7 m c) ((dat4 (V6 m) c).arrAt · cfg4.N)
      (((dat4 (V6 m) c).arrAt_in 0 rfl _).trans ((A_eq4 (V6 m) c 0).trans (W7_of m c main_v0_0 (by decide)).symm))
      (((dat4 (V6 m) c).arrAt_in 1 rfl _).trans ((A_eq4 (V6 m) c 1).trans (W7_of m c main_v4 (by decide)).symm))
      (((dat4 (V6 m) c).arrAt_in 2 rfl _).trans ((A_eq4 (V6 m) c 2).trans (W7_of m c main_v0_1 (by decide)).symm))
      (((dat4 (V6 m) c).arrAt_in 3 rfl _).trans ((A_eq4 (V6 m) c 3).trans (W7_of m c main_v4 (by decide)).symm))
      (((dat4 (V6 m) c).arrAt_in 4 rfl _).trans ((A_eq4 (V6 m) c 4).trans (W7_of m c main_v0_1 (by decide)).symm))
      (((dat4 (V6 m) c).arrAt_in 5 rfl _).trans ((A_eq4 (V6 m) c 5).trans (W7_of m c main_v5 (by decide)).symm))
      (W7_main_v6 m c).symm) (Entails.of_eq ?_)
  unfold Pipeline.unscopedRest
  exact bigSep_congr fun b hb => congrArg (fun x => (((c : Thread nD τ).loc b) ↦{fullShare} x : sProp 𝕄))
    (hrest4 m c b (Finset.mem_sdiff.mp hb).2).symm

set_option backward.isDefEq.respectTransparency.types false in

def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (V6 m) c).loose
  hwaits := Pipeline.hwaits_of_owed_zero _ _ _ _ L lv 4 fun c t => owed_eq4 (V6 m) c t
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m c)
  hentry c := by
    rw [Pipeline.ownSems0_none]
    iintro ⟨⟨Hub, Hp, HO⟩, -, -⟩
    ihave H := (entry_split4 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m 4 c) (owed_eq4 (V6 m) c 0) (recorded_eq4 (V6 m) c 0))
      iexact HO
    isplitl [Hp]; · iexact Hp
    iexact Hrest
  hin c := in_of_ΦA spec4 c _ _ (hin4 (V6 m) c)
  hout c := out_of_ΦA spec4 c _ (hout4 (V6 m) c)
  hexit c := by
    iintro ⟨Ha, HO, HY, Hrest⟩
    imodintro
    isplitl [Ha Hrest HY]
    · isplitl [Ha Hrest]
      · iapply (exit_join4 m c); isplitl [Ha] <;> iassumption
      iexact HY
    iapply (owes_of_owesAt (pdats m 4 c) (owed_eq4 (V6 m) c _))
    iexact HO

abbrev segs : List (Pipeline.Seg (pcfgs (F := F)) adm (pdats m) () defs₀ 𝒱₀ L lv) :=
  [ .region (reg0 m),
    .region (reg1 m),
    .host (hseg hostOps2 hostOps2_sub reshape2_fresh (W2 m)),
    .region (reg2 m),
    .region (reg3 m),
    .host (hseg hostOps4 hostOps4_sub reshape4_fresh (W5 m)),
    .region (reg4 m) ]

theorem main_run (c : Dev nD) : main (F := F) c = Pipeline.Seg.run (segs m) :=
  main_segs adm (pdats m) () 𝒱₀ L lv _ _ (reg0 m) (reg1 m) (reg2 m) (reg3 m) (reg4 m) rfl rfl c

set_option backward.isDefEq.respectTransparency.types false in

/-- Every weakly fair execution of the whole program ends, nothing faulting, with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![12288, 512]⟩
abbrev SA : Shape := ⟨2, ![12288, 12288]⟩
abbrev SW1 : Shape := ⟨2, ![512, 16]⟩
abbrev SB1 : Shape := ⟨1, ![16]⟩
abbrev SW2 : Shape := ⟨2, ![16, 40]⟩
abbrev SB2 : Shape := ⟨1, ![40]⟩
abbrev SO : Shape := ⟨2, ![12288, 40]⟩

variable (x : SX.Idx → EReal) (adj : SA.Idx → EReal) (w1 : SW1.Idx → EReal) (b1 : SB1.Idx → EReal)
  (w2 : SW2.Idx → EReal) (b2 : SB2.Idx → EReal)

def deg (i : Fin 12288) : EReal := (∑ n : Fin 12288, adj (ix2 i n)) + 1

def dinv (i : Fin 12288) : EReal := Ideal.rsqrt (deg adj i)

def xw (i : Fin 12288) (c : Fin 16) : EReal := ∑ f : Fin 512, x (ix2 i f) * w1 (ix2 f c)

/-- One graph convolution as the kernel arranges it: d i · ∑ n, a i n · (M n c · d n) + d i · d i · M i c + b c, d = deg^(-1/2). -/
def agg {w : ℕ} (M : Fin 12288 → Fin w → EReal) (b : Fin w → EReal) (i : Fin 12288) (c : Fin w) : EReal :=
  dinv adj i * (∑ n : Fin 12288, adj (ix2 i n) * (M n c * dinv adj n)) + (dinv adj i * dinv adj i) * M i c + b c

def hid (i : Fin 12288) (c : Fin 16) : EReal := max (agg adj (xw x w1) (fun c => b1 (ix1 c)) i c) 0

def hw (i : Fin 12288) (c : Fin 40) : EReal := ∑ j : Fin 16, hid x adj w1 b1 i j * w2 (ix2 j c)

def logits (i : Fin 12288) (c : Fin 40) : EReal := agg adj (hw x adj w1 b1 w2) (fun c => b2 (ix1 c)) i c

def rowmax (v : Fin 40 → EReal) : EReal := (Finset.univ : Finset (Fin 40)).fold max ⊥ v

def lsm (v : Fin 40 → EReal) (c : Fin 40) : EReal :=
  (v c - rowmax v) - Ideal.log (∑ c' : Fin 40, Ideal.exp (v c' - rowmax v))

/-- The network in the kernel's arrangement: the row-wise log-softmax of the second convolution of the rectified first. -/
def out : SO.Idx → EReal := fun y => lsm (fun c => logits x adj w1 b1 w2 b2 (y 0) c) (y 1)

def eye (i n : Fin 12288) : EReal := if i = n then 1 else 0

def degR (i : Fin 12288) : EReal := 0 + ∑ n : Fin 12288, (adj (ix2 i n) + eye i n)

def dinvR (i : Fin 12288) : EReal := Ideal.rsqrt (degR adj i)

def norm (i n : Fin 12288) : EReal := ((adj (ix2 i n) + eye i n) * dinvR adj i) * dinvR adj n

/-- The same as the reference arranges it: ∑ n, N i n · M n c + b c with N = D^(-1/2) (A + I) D^(-1/2). -/
def aggR {w : ℕ} (M : Fin 12288 → Fin w → EReal) (b : Fin w → EReal) (i : Fin 12288) (c : Fin w) : EReal :=
  (∑ n : Fin 12288, norm adj i n * M n c) + b c

def hidR (i : Fin 12288) (c : Fin 16) : EReal := max (aggR adj (xw x w1) (fun c => b1 (ix1 c)) i c) 0
def hwR (i : Fin 12288) (c : Fin 40) : EReal := ∑ j : Fin 16, hidR x adj w1 b1 i j * w2 (ix2 j c)
def logitsR (i : Fin 12288) (c : Fin 40) : EReal := aggR adj (hwR x adj w1 b1 w2) (fun c => b2 (ix1 c)) i c

def lsmR (v : Fin 40 → EReal) (c : Fin 40) : EReal :=
  (v c - max ⊥ (rowmax v)) - Ideal.log (0 + ∑ c' : Fin 40, Ideal.exp (v c' - max ⊥ (rowmax v)))

/-- The network in the reference's arrangement. -/
def outR : SO.Idx → EReal := fun y => lsmR (fun c => logitsR x adj w1 b1 w2 b2 (y 0) c) (y 1)

end Cert.Spec

end
-- ==== Proof.Val.Pay0.lean ====
import proofs.«111342_j55946243997874_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.HandVal

open Cert.KernelIdeal Cert.KernelIdeal.Gen Idealize.ShloMosaic Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowSum_apply (v3 : Vec Ideal S2048x1024 .f32) (h : S2048x1024.Reduces [1] S2048)
    (hφ : FKind.Formats .f32) (hacc : (0x00000000#32 : BitVec 32) = 0x00000000#32) (p : Fin 2048) :
    multiReduction (F := Ideal) .add [1] S2048 v3 0x00000000#32 h hφ hacc (ix1 p) = ∑ j : Fin 1024, v3 (ix2 p j) := by
  refine (Ideal.multiReduction_add_single v3 0x00000000#32 h hφ hacc (ix1 p)).trans ?_
  refine Finset.sum_congr rfl fun j _ => congrArg v3 ?_
  funext a
  match a with
  | ⟨0, _⟩ => rfl
  | ⟨1, _⟩ => rfl

theorem k0_pay1_apply (y : S2048x1.Idx) : k0_pay1 (F := Ideal) y = 0 := by
  unfold k0_pay1
  rw [shapeCast_self]
  exact Ideal.ofBits_zero_f32

theorem k0_pay2_apply (v3 : Vec Ideal S2048x1024 .f32) (v4 : Vec Ideal S2048x1 .f32) (p : Fin 2048) :
    k0_pay2 v3 v4 (ix2 p 0) = v4 (ix2 p 0) + ∑ j : Fin 1024, v3 (ix2 p j) := by
  unfold k0_pay2
  rw [shapeCast_self]
  refine (addf_apply _ _ _).trans ?_
  refine congrArg (v4 (ix2 p 0) + ·) ?_
  refine (shapeCast_a_a1_apply _ _ p 0).trans ?_
  exact rowSum_apply v3 _ _ _ p

theorem k0_pay4_apply (v16 : Vec Ideal S2048x1 .f32) (p : Fin 2048) :
    k0_pay4 v16 (ix2 p 0) = Ideal.rsqrt (v16 (ix2 p 0) + 1) := by
  unfold k0_pay4
  show Ideal.rsqrt (v16 (ix2 p 0) + Ideal.ofBits .f32 0x3F800000#32) = _
  rw [Ideal.ofBits_one_f32]

end Cert.KernelIdeal.HandVal

end
-- ==== Proof.Val.Sums.lean ====
import Mathlib.Algebra.BigOperators.Fin
import Mathlib.Algebra.BigOperators.Group.Finset.Basic
import Mathlib.Data.Fintype.BigOperators
import Mathlib.Logic.Equiv.Fin.Basic

namespace Cert.KernelIdeal.HandVal

variable {M : Type*} [AddCommMonoid M]

theorem tile_lt {K B : ℕ} (k : Fin K) (j : Fin B) : B * k.val + j.val < K * B :=
  calc B * k.val + j.val < B * k.val + B := Nat.add_lt_add_left j.isLt _
    _ = B * (k.val + 1) := (Nat.mul_succ _ _).symm
    _ ≤ B * K := Nat.mul_le_mul_left B k.isLt
    _ = K * B := Nat.mul_comm _ _

/-- A sum over `K * B` indices is the sum over the `K` tiles of each tile's `B` entries. -/
theorem sum_tiles (K B : ℕ) (f : Fin (K * B) → M) :
    ∑ k : Fin K, ∑ j : Fin B, f ⟨B * k.val + j.val, tile_lt k j⟩ = ∑ n : Fin (K * B), f n := by
  refine Eq.trans ?_ ((finProdFinEquiv (m := K) (n := B)).sum_comp f)
  rw [Fintype.sum_prod_type]
  exact Finset.sum_congr rfl fun k _ => Finset.sum_congr rfl fun j _ => congrArg f (Fin.ext (Nat.add_comm _ _))

theorem sum_6_2048_rows (f : Fin 12288 → M) :
    ∑ k : Fin 6, ∑ j : Fin 2048, f ⟨2048 * k.val + j.val, by omega⟩ = ∑ n : Fin 12288, f n :=
  sum_tiles 6 2048 f

theorem sum_12_1024_cols (f : Fin 12288 → M) :
    ∑ k : Fin 12, ∑ j : Fin 1024, f ⟨1024 * k.val + j.val, by omega⟩ = ∑ n : Fin 12288, f n :=
  sum_tiles 12 1024 f

end Cert.KernelIdeal.HandVal
-- ==== Proof.Val.Deg0.lean ====
import proofs.«111342_j55946243997874_2_alg».proof.Proof.KI.Region0
import proofs.«111342_j55946243997874_2_alg».proof.Proof.Spec
import proofs.«111342_j55946243997874_2_alg».proof.Proof.Val.Pay0
import proofs.«111342_j55946243997874_2_alg».proof.Proof.Val.Sums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem idx0_0 : ∀ t : Fin cfg0.N, win0_0.index t (0 : Fin 2) = t.val / 12 ∧ win0_0.index t (1 : Fin 2) = t.val % 12 :=
  (by decide +kernel : ∀ t : Fin grid0.N, win0_0.index t (0 : Fin 2) = t.val / 12 ∧ win0_0.index t (1 : Fin 2) = t.val % 12)

theorem idx0_1 : ∀ t : Fin cfg0.N, win0_1.index t (0 : Fin 2) = t.val / 12 ∧ win0_1.index t (1 : Fin 2) = t.val % 12 :=
  (by decide +kernel : ∀ t : Fin grid0.N, win0_1.index t (0 : Fin 2) = t.val / 12 ∧ win0_1.index t (1 : Fin 2) = t.val % 12)

theorem idx0_2 : ∀ t : Fin cfg0.N, win0_2.index t (0 : Fin 2) = t.val / 12 ∧ win0_2.index t (1 : Fin 2) = 0 :=
  (by decide +kernel : ∀ t : Fin grid0.N, win0_2.index t (0 : Fin 2) = t.val / 12 ∧ win0_2.index t (1 : Fin 2) = 0)

theorem mem_blk0_1 (t : Fin cfg0.N) (i : S12288x12288.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v0_0).slice (win0_1.rect t)).set ↔ _
  rw [View.set_slice_whole, Rect.mem_set_unit]
  exact Iff.rfl

theorem mem_blk0_2 (t : Fin cfg0.N) (i : S12288x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0_1).slice (win0_2.rect t)).set ↔ _
  rw [View.set_slice_whole, Rect.mem_set_unit]
  exact Iff.rfl

theorem cover0_1 (i : S12288x12288.Idx) : ∃ t : Fin cfg0.N, (cfg0.win 1).flush t = true ∧ i ∈ ((cfg0.win 1).blk t).view.set := by
  have hN : cfg0.N = 72 := N_0
  have h0 : (i 0).val < 12288 := (i 0).isLt
  have h1 : (i 1).val < 12288 := (i 1).isLt
  refine ⟨⟨12 * ((i 0).val / 2048) + (i 1).val / 1024, by omega⟩, flush0_1 _, ?_⟩
  rw [mem_blk0_1]
  obtain ⟨e0, e1⟩ := idx0_1 ⟨12 * ((i 0).val / 2048) + (i 1).val / 1024, by omega⟩
  intro a
  match a with
  | ⟨0, _⟩ =>
    show win0_1.index _ (0 : Fin 2) * 2048 ≤ (i 0).val ∧ (i 0).val < win0_1.index _ (0 : Fin 2) * 2048 + 2048
    rw [e0]; dsimp only; omega
  | ⟨1, _⟩ =>
    show win0_1.index _ (1 : Fin 2) * 1024 ≤ (i 1).val ∧ (i 1).val < win0_1.index _ (1 : Fin 2) * 1024 + 1024
    rw [e1]; dsimp only; omega

theorem cover0_2 (i : S12288x1.Idx) : ∃ t : Fin cfg0.N, (cfg0.win 2).flush t = true ∧ i ∈ ((cfg0.win 2).blk t).view.set := by
  have hN : cfg0.N = 72 := N_0
  have h0 : (i 0).val < 12288 := (i 0).isLt
  have h1 : (i 1).val < 1 := (i 1).isLt
  refine ⟨⟨12 * ((i 0).val / 2048) + 11, by omega⟩, (flush0_2 _).mpr (by dsimp only; omega), ?_⟩
  rw [mem_blk0_2]
  obtain ⟨e0, e1⟩ := idx0_2 ⟨12 * ((i 0).val / 2048) + 11, by omega⟩
  intro a
  match a with
  | ⟨0, _⟩ =>
    show win0_2.index _ (0 : Fin 2) * 2048 ≤ (i 0).val ∧ (i 0).val < win0_2.index _ (0 : Fin 2) * 2048 + 2048
    rw [e0]; dsimp only; omega
  | ⟨1, _⟩ =>
    show win0_2.index _ (1 : Fin 2) * 1 ≤ (i 1).val ∧ (i 1).val < win0_2.index _ (1 : Fin 2) * 1 + 1
    rw [e1]; omega

variable (V : (c : Dev nD) → (b : Ref sig .tc) → Buf (Elt Ideal) ((c : Thread nD τ).loc b))

abbrev aarr (c : Dev nD) : Vec Ideal S12288x12288 .f32 := V c main_arg1

abbrev atile (c : Dev nD) (t : Fin cfg0.N) : Vec Ideal S2048x1024 .f32 := iblk0 V c 0 t

theorem atile_apply (c : Dev nD) (t : Fin cfg0.N) (p : Fin 2048) (j : Fin 1024) :
    atile V c t (ix2 p j)
      = aarr V c (ix2 ⟨2048 * (t.val / 12) + p.val, by have := p.isLt; have := t.isLt; have : cfg0.N = 72 := N_0; omega⟩
          ⟨1024 * (t.val % 12) + j.val, by have := j.isLt; omega⟩) := by
  unfold atile iblk0
  rw [View.read_apply]
  show V c main_arg1 _ = V c main_arg1 _
  congr 1
  funext a
  apply Fin.ext
  match a with
  | ⟨0, _⟩ => show win0_0.index t (0 : Fin 2) * 2048 + 1 * p.val = 2048 * (t.val / 12) + p.val; rw [(idx0_0 t).1]; omega
  | ⟨1, _⟩ => show win0_0.index t (1 : Fin 2) * 1024 + 1 * j.val = 1024 * (t.val % 12) + j.val; rw [(idx0_0 t).2]; omega

def tsum (c : Dev nD) (i : ℕ) (p : Fin 2048) (k : ℕ) : EReal :=
  if h : i < 6 ∧ k < 12 then
    ∑ j : Fin 1024, aarr V c (ix2 ⟨2048 * i + p.val, by have := p.isLt; omega⟩ ⟨1024 * k + j.val, by have := j.isLt; omega⟩)
  else 0

theorem tile_rowsum (c : Dev nD) (t : Fin cfg0.N) (p : Fin 2048) :
    ∑ j : Fin 1024, atile V c t (ix2 p j) = tsum V c (t.val / 12) p (t.val % 12) := by
  have hN : cfg0.N = 72 := N_0
  have ht := t.isLt
  unfold tsum
  rw [dif_pos ⟨by omega, Nat.mod_lt _ (by decide)⟩]
  exact Finset.sum_congr rfl fun j _ => atile_apply V c t p j

theorem rowsum_tiles (c : Dev nD) (i : ℕ) (hi : i < 6) (p : Fin 2048) (r : Fin 12288) (hr : r.val = 2048 * i + p.val) :
    ∑ k' ∈ Finset.range 12, tsum V c i p k' = ∑ n : Fin 12288, aarr V c (ix2 r n) := by
  obtain ⟨rv, hrv⟩ := r
  have hr' : rv = 2048 * i + p.val := hr
  subst hr'
  rw [Finset.sum_range, ← sum_12_1024_cols (fun n : Fin 12288 => aarr V c (ix2 ⟨2048 * i + p.val, hrv⟩ n))]
  refine Finset.sum_congr rfl fun k _ => ?_
  unfold tsum
  rw [dif_pos ⟨hi, k.isLt⟩]

theorem bf_eq (c : Dev nD) (t : Fin cfg0.N) : (outsAt0 V c t.val t.isLt).1 = k0_pay3 (iblk0 V c 0 t) := by
  by_cases h0 : t.val % 12 = 0
  · rw [outsAt0_A V c t h0]
    dsimp only
    exact out0_A_1_eq c (grid0.coords t) (ms0_0 t) (hs0_0 t) (ms0_1 t) (hs0_1 t) (ms0_2 t) (hs0_2 t) scM0_0 (Memref.isWhole_whole _) ((hcond0_0 t).mpr h0) (ncond0_1_of t h0) (iblk0 V c 0 t)
  · by_cases h1 : t.val % 12 = 11
    · rw [outsAt0_C V c t h0 h1]
      dsimp only
      exact out0_C_1_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2
    · rw [outsAt0_B V c t h0 h1]
      dsimp only
      exact out0_B_1_eq c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2

theorem scr_first (c : Dev nD) (t : Fin cfg0.N) (h0 : t.val % 12 = 0) (p : Fin 2048) :
    (outsAt0 V c t.val t.isLt).2.2 (ix2 p 0) = 0 + ∑ j : Fin 1024, atile V c t (ix2 p j) := by
  rw [outsAt0_A V c t h0]
  dsimp only
  refine (congrFun (sout0_A_0_eq c (grid0.coords t) (ms0_0 t) (hs0_0 t) (ms0_1 t) (hs0_1 t) (ms0_2 t) (hs0_2 t) scM0_0 (Memref.isWhole_whole _) ((hcond0_0 t).mpr h0) (ncond0_1_of t h0) (iblk0 V c 0 t)) (ix2 p 0)).trans ?_
  refine (k0_pay2_apply (iblk0 V c 0 t) (k0_pay1 (F := Ideal)) p).trans ?_
  rw [k0_pay1_apply]

theorem scr_next (c : Dev nD) (t : Fin cfg0.N) (h0 : ¬t.val % 12 = 0) (p : Fin 2048) :
    (outsAt0 V c t.val t.isLt).2.2 (ix2 p 0)
      = (outsAt0 V c (t.val - 1) (Nat.lt_of_le_of_lt (Nat.sub_le _ _) t.isLt)).2.2 (ix2 p 0) + ∑ j : Fin 1024, atile V c t (ix2 p j) := by
  by_cases h1 : t.val % 12 = 11
  · rw [outsAt0_C V c t h0 h1]
    dsimp only
    refine (congrFun (sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) (ix2 p 0)).trans ?_
    exact k0_pay2_apply (iblk0 V c 0 t) (outsAt0 V c (t.val - 1) (Nat.lt_of_le_of_lt (Nat.sub_le _ _) t.isLt)).2.2 p
  · rw [outsAt0_B V c t h0 h1]
    dsimp only
    refine (congrFun (sout0_B_0_eq c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) (ix2 p 0)).trans ?_
    exact k0_pay2_apply (iblk0 V c 0 t) (outsAt0 V c (t.val - 1) (Nat.lt_of_le_of_lt (Nat.sub_le _ _) t.isLt)).2.2 p

theorem sums_inv (c : Dev nD) : ∀ (n : ℕ) (hn : n < cfg0.N) (p : Fin 2048),
    (outsAt0 V c n hn).2.2 (ix2 p 0) = ∑ k' ∈ Finset.range (n % 12 + 1), tsum V c (n / 12) p k'
  | 0, hn, p => by
    refine (scr_first V c ⟨0, hn⟩ (Nat.zero_mod _) p).trans ?_
    rw [zero_add, tile_rowsum V c ⟨0, hn⟩ p]
    show tsum V c (0 / 12) p (0 % 12) = ∑ k' ∈ Finset.range (0 % 12 + 1), tsum V c (0 / 12) p k'
    rw [Nat.zero_mod, Finset.sum_range_succ, Finset.sum_range_zero, zero_add]
  | n + 1, hn, p => by
    by_cases h0 : (n + 1) % 12 = 0
    · refine (scr_first V c ⟨n + 1, hn⟩ h0 p).trans ?_
      rw [zero_add, tile_rowsum V c ⟨n + 1, hn⟩ p]
      show tsum V c ((n + 1) / 12) p ((n + 1) % 12) = ∑ k' ∈ Finset.range ((n + 1) % 12 + 1), tsum V c ((n + 1) / 12) p k'
      rw [h0, Finset.sum_range_succ, Finset.sum_range_zero, zero_add]
    · refine (scr_next V c ⟨n + 1, hn⟩ h0 p).trans ?_
      rw [tile_rowsum V c ⟨n + 1, hn⟩ p]
      show (outsAt0 V c n _).2.2 (ix2 p 0) + tsum V c ((n + 1) / 12) p ((n + 1) % 12) = ∑ k' ∈ Finset.range ((n + 1) % 12 + 1), tsum V c ((n + 1) / 12) p k'
      rw [sums_inv c n (Nat.lt_of_succ_lt hn) p]
      have e1 : n / 12 = (n + 1) / 12 := by omega
      have e2 : n % 12 + 1 = (n + 1) % 12 := by omega
      rw [e1, e2, Finset.sum_range_succ]

theorem dcol_eq (c : Dev nD) (t : Fin cfg0.N) (h1 : t.val % 12 = 11) (p : Fin 2048) :
    (outsAt0 V c t.val t.isLt).2.1 (ix2 p 0) = Ideal.rsqrt ((outsAt0 V c t.val t.isLt).2.2 (ix2 p 0) + 1) := by
  have h0 : ¬t.val % 12 = 0 := by omega
  rw [outsAt0_C V c t h0 h1]
  dsimp only
  rw [out0_C_2_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2,
    sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2]
  exact k0_pay4_apply _ p

theorem flushed0_1_eq (c : Dev nD) (t : Fin cfg0.N) (hf : (cfg0.win 1).flush t = true) :
    (dat0 (F := Ideal) V c).flushed 1 t = ((cfg0.win 1).blk t).view.read (Elt Ideal) (V c main_arg1 : S12288x12288.Idx → EReal) := by
  show (cfg0.win 1).cut (grid0.coords t) ((dat0 V c).after 1 t) = _
  rw [after0_1, bf_eq]
  funext y
  rw [View.read_apply]
  show iblk0 V c 0 t ((cfg0.win 1).xinj (grid0.coords t) y) = V c main_arg1 (((cfg0.win 1).blk t).view.emb y)
  unfold iblk0
  rw [View.read_apply]
  show V c main_arg1 _ = V c main_arg1 _
  refine congrArg (V c main_arg1) (funext fun a => Fin.ext ?_)
  match a with
  | ⟨0, _⟩ =>
    show win0_0.index t (0 : Fin 2) * 2048 + 1 * (y 0).val = win0_1.index t (0 : Fin 2) * 2048 + 1 * (y 0).val
    rw [(idx0_0 t).1, (idx0_1 t).1]
  | ⟨1, _⟩ =>
    show win0_0.index t (1 : Fin 2) * 1024 + 1 * (y 1).val = win0_1.index t (1 : Fin 2) * 1024 + 1 * (y 1).val
    rw [(idx0_0 t).2, (idx0_1 t).2]

theorem flushed0_2_eq (c : Dev nD) (t : Fin cfg0.N) (hf : (cfg0.win 2).flush t = true) :
    (dat0 (F := Ideal) V c).flushed 2 t
      = ((cfg0.win 2).blk t).view.read (Elt Ideal) (fun y : S12288x1.Idx => Cert.Spec.dinv (V c main_arg1) (y 0)) := by
  have hN : cfg0.N = 72 := N_0
  have ht := t.isLt
  have h1 : t.val % 12 = 11 := (flush0_2 t).mp hf
  show (cfg0.win 2).cut (grid0.coords t) ((dat0 V c).after 2 t) = _
  rw [after0_2]
  funext y
  rw [View.read_apply]
  have hy0 : (y 0).val < 2048 := (y 0).isLt
  have hy1 : (y 1).val < 1 := (y 1).isLt
  have hx : (cfg0.win 2).xinj (grid0.coords t) y = ix2 (⟨(y 0).val, hy0⟩ : Fin 2048) (0 : Fin 1) := by
    funext a
    apply Fin.ext
    match a with
    | ⟨0, _⟩ => rfl
    | ⟨1, _⟩ => show (y 1).val = 0; omega
  show (outsAt0 V c t.val t.isLt).2.1 ((cfg0.win 2).xinj (grid0.coords t) y) = Cert.Spec.dinv (V c main_arg1) ((((cfg0.win 2).blk t).view.emb y) 0)
  rw [hx, dcol_eq V c t h1, sums_inv V c t.val t.isLt, h1]
  unfold Cert.Spec.dinv Cert.Spec.deg
  refine congrArg (fun s => Ideal.rsqrt (s + 1)) ?_
  refine rowsum_tiles V c (t.val / 12) (by omega) ⟨(y 0).val, hy0⟩ _ ?_
  show win0_2.index t (0 : Fin 2) * 2048 + 1 * (y 0).val = 2048 * (t.val / 12) + (y 0).val
  rw [(idx0_2 t).1]; omega

theorem arrAt0_1 (c : Dev nD) : (dat0 (F := Ideal) V c).arrAt 1 cfg0.N = (V c main_arg1 : S12288x12288.Idx → EReal) :=
  (dat0 (F := Ideal) V c).arrAt_eq_of_cover 1 _ (flushed0_1_eq V c) cover0_1

theorem arrAt0_2 (c : Dev nD) : (dat0 (F := Ideal) V c).arrAt 2 cfg0.N = fun y : S12288x1.Idx => Cert.Spec.dinv (V c main_arg1) (y 0) :=
  (dat0 (F := Ideal) V c).arrAt_eq_of_cover 2 _ (flushed0_2_eq V c) cover0_2

end Cert.KernelIdeal.HandVal

end
-- ==== Proof.Val.Mat1.lean ====
import proofs.«111342_j55946243997874_2_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem lhs1_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide), dif_pos (show (0 : Fin S2048x512.rank) ∈ dot_S2048x512_S512x16_S2048x16_1_0_0_1_n_n.lhsNonContracting by decide)]
  rfl

theorem lhs1_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q

theorem rhs1_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q

theorem rhs1_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide), dif_pos (show (1 : Fin S512x16.rank) ∈ dot_S2048x512_S512x16_S2048x16_1_0_0_1_n_n.rhsNonContracting by decide)]
  rfl

set_option maxHeartbeats 400000 in

theorem pay1_apply (x0 : Vec Ideal S2048x512 .f32) (x1 : Vec Ideal S512x16 .f32) (p : Fin 2048) (q : Fin 16) :
    k1_pay1 x0 x1 (ix2 p q) = ∑ f : Fin 512, x0 (ix2 p f) * x1 (ix2 f q) := by
  unfold k1_pay1
  try simp only [shapeCast_self]
  show FloatOps.matmul (F := Ideal) (φ₁ := .bf16) (φ₂ := .bf16) dot_S2048x512_S512x16_S2048x16_1_0_0_1_n_n none (x0 : FVec Ideal S2048x512 .bf16) (x1 : FVec Ideal S512x16 .bf16) (constant S2048x16 .f32 0x00000000#32) (ix2 p q) = _
  rw [Ideal.matmul_constant_zero_apply, ← Equiv.sum_comp (contrEquiv1 dot_S2048x512_S512x16_S2048x16_1_0_0_1_n_n 512 rfl rfl).symm]
  refine Finset.sum_congr rfl fun f _ => ?_
  have hf := contrEquiv1_symm_val dot_S2048x512_S512x16_S2048x16_1_0_0_1_n_n 512 rfl rfl f
  have el : dot_S2048x512_S512x16_S2048x16_1_0_0_1_n_n.lhsIdx (ix2 p q) ((contrEquiv1 dot_S2048x512_S512x16_S2048x16_1_0_0_1_n_n 512 rfl rfl).symm f) = ix2 p f := funext fun a => Fin.ext (by
    match a with
    | ⟨0, _⟩ => exact lhs1_0 _ _
    | ⟨1, _⟩ => exact (lhs1_1 _ _).trans hf)
  have er : dot_S2048x512_S512x16_S2048x16_1_0_0_1_n_n.rhsIdx (ix2 p q) ((contrEquiv1 dot_S2048x512_S512x16_S2048x16_1_0_0_1_n_n 512 rfl rfl).symm f) = ix2 f q := funext fun a => Fin.ext (by
    match a with
    | ⟨0, _⟩ => exact (rhs1_0 _ _).trans hf
    | ⟨1, _⟩ => exact rhs1_1 _ _)
  rw [el, er]

abbrev prod1 (X : S12288x512.Idx → EReal) (W : S512x16.Idx → EReal) : S12288x16.Idx → EReal :=
  fun y => ∑ f : Fin 512, X (ix2 (y 0) f) * W (ix2 f (y 1))

theorem pay1_at (x0 : Vec Ideal S2048x512 .f32) (x1 : Vec Ideal S512x16 .f32) (X : S12288x512.Idx → EReal) (W : S512x16.Idx → EReal)
    (y : S2048x16.Idx) (r : S12288x16.Idx)
    (h0 : ∀ f : Fin 512, x0 (ix2 (y 0) f) = X (ix2 (r 0) f)) (h1 : ∀ f : Fin 512, x1 (ix2 f (y 1)) = W (ix2 f (r 1))) :
    k1_pay1 x0 x1 y = prod1 X W r := by
  obtain ⟨p, q, rfl⟩ : ∃ (p : Fin 2048) (q : Fin 16), y = ix2 p q := ⟨y 0, y 1, eq_ix2 y⟩
  rw [pay1_apply]
  exact Finset.sum_congr rfl fun f _ => congrArg₂ (· * ·) (h0 f) (h1 f)

theorem hz1 : (![0, 0] : Fin 2 → Nat) = fun _ => 0 := funext fun a => by fin_cases a <;> rfl

theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

set_option maxHeartbeats 400000 in

theorem flushed1_eq (c : Dev nD) (t : Fin cfg1.N) :
    (dat1 (F := Ideal) V c).flushed 2 t = ((cfg1.win 2).blk t).view.read (Elt Ideal) (prod1 (V c main_arg0) (V c main_arg2)) := by
  show (cfg1.win 2).cut (grid1.coords t) ((dat1 V c).after 2 t) = _
  rw [after1_2]
  unfold out1_2
  rw [View.canon_unit_zero hz1]
  simp only [View.ld_unit_zero (S := S2048x512) hz1, View.ld_unit_zero (S := S512x16) hz1]
  obtain ⟨e0, e1, e2, e3, e4, e5⟩ := idx_facts1 t
  funext y
  show k1_pay1 (iblk1 V c 0 t) (iblk1 V c 1 t) _ = prod1 (V c main_arg0) (V c main_arg2) (((cfg1.win 2).blk t).view.emb y)
  refine pay1_at (iblk1 V c 0 t) (iblk1 V c 1 t) (V c main_arg0) (V c main_arg2) _ _ (fun f => ?_) (fun f => ?_)
  ·
    show (V c main_arg0 : S12288x512.Idx → EReal) (((cfg1.win 0).blk t).view.emb (ix2 ⟨(y 0).val, (y 0).isLt⟩ f)) = (V c main_arg0 : S12288x512.Idx → EReal) _
    refine congrArg _ (funext fun a => Fin.ext ?_)
    match a with
    | ⟨0, _⟩ => show win1_0.index t (0 : Fin 2) * 2048 + 1 * (y 0).val = win1_2.index t (0 : Fin 2) * 2048 + 1 * (y 0).val; omega
    | ⟨1, _⟩ => show win1_0.index t (1 : Fin 2) * 512 + 1 * f.val = f.val; omega
  ·
    show (V c main_arg2 : S512x16.Idx → EReal) (((cfg1.win 1).blk t).view.emb (ix2 f ⟨(y 1).val, (y 1).isLt⟩)) = (V c main_arg2 : S512x16.Idx → EReal) _
    refine congrArg _ (funext fun a => Fin.ext ?_)
    match a with
    | ⟨0, _⟩ => show win1_1.index t (0 : Fin 2) * 512 + 1 * f.val = f.val; omega
    | ⟨1, _⟩ => show win1_1.index t (1 : Fin 2) * 16 + 1 * (y 1).val = win1_2.index t (1 : Fin 2) * 16 + 1 * (y 1).val; omega

theorem mem_blk1 (t : Fin cfg1.N) (i : S12288x16.Idx) :
    i ∈ ((cfg1.win 2).blk t).view.set ↔ ∀ a : Fin 2, win1_2.index t a * S2048x16.size a ≤ (i a).val ∧ (i a).val < win1_2.index t a * S2048x16.size a + S2048x16.size a := by
  show i ∈ ((View.whole main_v1).slice (win1_2.rect t)).set ↔ _
  rw [View.set_slice_whole, Rect.mem_set_unit]
  exact Iff.rfl

theorem cover1 (i : S12288x16.Idx) : ∃ t : Fin cfg1.N, (cfg1.win 2).flush t = true ∧ i ∈ ((cfg1.win 2).blk t).view.set := by
  have hi0 : (i 0).val < 12288 := (i 0).isLt
  have hi1 : (i 1).val < 16 := (i 1).isLt
  have hN : cfg1.N = 6 := N_1
  refine ⟨⟨(i 0).val / 2048, by rw [hN]; omega⟩, flush1_2 _, ?_⟩
  rw [mem_blk1]
  obtain ⟨-, -, -, -, e4, e5⟩ := idx_facts1 ⟨(i 0).val / 2048, by rw [hN]; omega⟩
  intro a
  match a with
  | ⟨0, _⟩ => show win1_2.index _ (0 : Fin 2) * 2048 ≤ (i 0).val ∧ (i 0).val < win1_2.index _ (0 : Fin 2) * 2048 + 2048; rw [e4]; show (i 0).val / 2048 * 2048 ≤ (i 0).val ∧ (i 0).val < (i 0).val / 2048 * 2048 + 2048; omega
  | ⟨1, _⟩ => show win1_2.index _ (1 : Fin 2) * 16 ≤ (i 1).val ∧ (i 1).val < win1_2.index _ (1 : Fin 2) * 16 + 16; rw [e5]; omega

theorem arrAt1 (c : Dev nD) : ((dat1 (F := Ideal) V c).arrAt 2 cfg1.N : S12288x16.Idx → EReal)
    = fun y : S12288x16.Idx => ∑ f : Fin 512, @HMul.hMul EReal EReal EReal instHMul (V c main_arg0 (ix2 (y 0) f)) (V c main_arg2 (ix2 f (y 1))) :=
  (dat1 (F := Ideal) V c).arrAt_eq_of_cover 2 (prod1 (V c main_arg0) (V c main_arg2)) (fun t _ => flushed1_eq V c t) cover1

end Cert.KernelIdeal.HandVal

end
-- ==== Proof.Val.Pay2.lean ====
import proofs.«111342_j55946243997874_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.HandVal

open Cert.KernelIdeal Cert.KernelIdeal.Gen Idealize.ShloMosaic Idealize.ShloMosaic.ValueIdx

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k2_pay1_apply (y : S2048x16.Idx) : k2_pay1 (F := Ideal) y = 0 := by
  unfold k2_pay1
  simp only [shapeCast_self]
  exact Ideal.ofBits_zero_f32

private theorem lhs2_0 (i : S2048x16.Idx) (r : dot_S2048x2048_S2048x16_S2048x16_1_0_0_1_n_n.contr.Idx) :
    (dot_S2048x2048_S2048x16_S2048x16_1_0_0_1_n_n.lhsIdx i r 0).val = (i 0).val := by
  unfold DotDims.lhsIdx
  rw [dif_neg (show ¬(0 : Fin S2048x2048.rank) ∈ dot_S2048x2048_S2048x16_S2048x16_1_0_0_1_n_n.lhsBatch by decide), dif_pos (show (0 : Fin S2048x2048.rank) ∈ dot_S2048x2048_S2048x16_S2048x16_1_0_0_1_n_n.lhsNonContracting by decide)]
  rfl

private theorem lhs2_1 (i : S2048x16.Idx) (r : dot_S2048x2048_S2048x16_S2048x16_1_0_0_1_n_n.contr.Idx) :
    (dot_S2048x2048_S2048x16_S2048x16_1_0_0_1_n_n.lhsIdx i r 1).val = (r ⟨0, by decide⟩).val :=
  dot_S2048x2048_S2048x16_S2048x16_1_0_0_1_n_n.lhsIdx_val_of_single rfl i r

private theorem rhs2_0 (i : S2048x16.Idx) (r : dot_S2048x2048_S2048x16_S2048x16_1_0_0_1_n_n.contr.Idx) :
    (dot_S2048x2048_S2048x16_S2048x16_1_0_0_1_n_n.rhsIdx i r 0).val = (r ⟨0, by decide⟩).val :=
  dot_S2048x2048_S2048x16_S2048x16_1_0_0_1_n_n.rhsIdx_val_of_single rfl i r

private theorem rhs2_1 (i : S2048x16.Idx) (r : dot_S2048x2048_S2048x16_S2048x16_1_0_0_1_n_n.contr.Idx) :
    (dot_S2048x2048_S2048x16_S2048x16_1_0_0_1_n_n.rhsIdx i r 1).val = (i 1).val := by
  unfold DotDims.rhsIdx
  rw [dif_neg (show ¬(1 : Fin S2048x16.rank) ∈ dot_S2048x2048_S2048x16_S2048x16_1_0_0_1_n_n.rhsBatch by decide), dif_pos (show (1 : Fin S2048x16.rank) ∈ dot_S2048x2048_S2048x16_S2048x16_1_0_0_1_n_n.rhsNonContracting by decide)]
  rfl

set_option maxHeartbeats 400000 in

private theorem mm2_apply (a : FVec Ideal S2048x2048 .bf16) (b : FVec Ideal S2048x16 .bf16) (p : Fin 2048) (q : Fin 16) :
    FloatOps.matmul (F := Ideal) dot_S2048x2048_S2048x16_S2048x16_1_0_0_1_n_n none a b (constant S2048x16 .f32 0x00000000#32) (ix2 p q)
      = ∑ j : Fin 2048, a (ix2 p j) * b (ix2 j q) := by
  rw [Ideal.matmul_constant_zero_apply, ← Equiv.sum_comp (contrEquiv1 dot_S2048x2048_S2048x16_S2048x16_1_0_0_1_n_n 2048 rfl rfl).symm]
  refine Finset.sum_congr rfl fun j _ => ?_
  have hj := contrEquiv1_symm_val dot_S2048x2048_S2048x16_S2048x16_1_0_0_1_n_n 2048 rfl rfl j
  have el : dot_S2048x2048_S2048x16_S2048x16_1_0_0_1_n_n.lhsIdx (ix2 p q) ((contrEquiv1 dot_S2048x2048_S2048x16_S2048x16_1_0_0_1_n_n 2048 rfl rfl).symm j) = ix2 p j := funext fun a => Fin.ext (by
    match a with
    | ⟨0, _⟩ => exact lhs2_0 _ _
    | ⟨1, _⟩ => exact (lhs2_1 _ _).trans hj)
  have er : dot_S2048x2048_S2048x16_S2048x16_1_0_0_1_n_n.rhsIdx (ix2 p q) ((contrEquiv1 dot_S2048x2048_S2048x16_S2048x16_1_0_0_1_n_n 2048 rfl rfl).symm j) = ix2 j q := funext fun a => Fin.ext (by
    match a with
    | ⟨0, _⟩ => exact (rhs2_0 _ _).trans hj
    | ⟨1, _⟩ => exact rhs2_1 _ _)
  rw [el, er]

set_option maxHeartbeats 400000 in

theorem k2_pay2_apply (v3 : Vec Ideal S2048x2048 .bf16) (v5 : Vec Ideal S2048x16 .f32) (v7 : Vec Ideal S2048x1 .f32) (v12 : Vec Ideal S2048x16 .f32) (p : Fin 2048) (q : Fin 16) :
    k2_pay2 v3 v5 v7 v12 (ix2 p q) = v12 (ix2 p q) + ∑ j : Fin 2048, v3 (ix2 p j) * (v5 (ix2 j q) * v7 (ix2 j 0)) := by
  unfold k2_pay2
  simp only [shapeCast_self]
  refine congrArg (v12 (ix2 p q) + ·) ?_
  refine (mm2_apply _ _ p q).trans ?_
  refine Finset.sum_congr rfl fun j _ => congrArg (v3 (ix2 p j) * ·) ?_
  exact congrArg (v5 (ix2 j q) * ·) (broadcastTo_a1_ab_apply v7 broadcasts_S2048x1_S2048x16 j q)

set_option maxHeartbeats 400000 in

theorem k2_pay3_apply (v21 : Vec Ideal S2048x1 .f32) (v24 : Vec Ideal S2048x16 .f32) (v28 : Vec Ideal S2048x16 .f32) (v32 : Vec Ideal S1x16 .f32) (p : Fin 2048) (q : Fin 16) :
    k2_pay3 v21 v24 v28 v32 (ix2 p q) = max (v21 (ix2 p 0) * v28 (ix2 p q) + (v21 (ix2 p 0) * v21 (ix2 p 0)) * v24 (ix2 p q) + v32 (ix2 0 q)) 0 := by
  unfold k2_pay3
  simp only [shapeCast_self]
  refine congrArg₂ max ?_ Ideal.ofBits_zero_f32
  refine congrArg₂ (· + ·) (congrArg₂ (· + ·) ?_ ?_) ?_
  · exact congrArg (· * v28 (ix2 p q)) (broadcastTo_a1_ab_apply v21 broadcasts_S2048x1_S2048x16 p q)
  · exact congrArg (· * v24 (ix2 p q)) (broadcastTo_a1_ab_apply (mulf (F := Ideal) (s := S2048x1) (φ := .f32) v21 v21) broadcasts_S2048x1_S2048x16 p q)
  · exact broadcastTo_1b_ab_apply v32 broadcasts_S1x16_S2048x16 p q

end Cert.KernelIdeal.HandVal

end
-- ==== Proof.Val.Agg2.lean ====
import proofs.«111342_j55946243997874_2_alg».proof.Proof.KI.Region2
import proofs.«111342_j55946243997874_2_alg».proof.Proof.Val.Pay2
import proofs.«111342_j55946243997874_2_alg».proof.Proof.Val.Sums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

abbrev agg2 (a : S12288x12288.Idx → EReal) (M : S12288x16.Idx → EReal) (d : S12288x1.Idx → EReal) (b : S1x16.Idx → EReal) :
    S12288x16.Idx → EReal :=
  fun y => max (d (ix2 (y 0) 0) * (∑ n : Fin 12288, a (ix2 (y 0) n) * (M (ix2 n (y 1)) * d (ix2 n 0)))
    + (d (ix2 (y 0) 0) * d (ix2 (y 0) 0)) * M (ix2 (y 0) (y 1)) + b (ix2 0 (y 1))) 0

abbrev nsum2 (a : S12288x12288.Idx → EReal) (M : S12288x16.Idx → EReal) (d : S12288x1.Idx → EReal) (R : Fin 12288) (q : Fin 16) : EReal :=
  ∑ n : Fin 12288, a (ix2 R n) * (M (ix2 n q) * d (ix2 n 0))

def term2 (a : S12288x12288.Idx → EReal) (M : S12288x16.Idx → EReal) (d : S12288x1.Idx → EReal) (R : Fin 12288) (q : Fin 16)
    (k : Fin 6) : EReal :=
  ∑ j : Fin 2048, a (ix2 R ⟨2048 * k.val + j.val, by omega⟩)
    * (M (ix2 ⟨2048 * k.val + j.val, by omega⟩ q) * d (ix2 ⟨2048 * k.val + j.val, by omega⟩ 0))

theorem sum_term2 (a : S12288x12288.Idx → EReal) (M : S12288x16.Idx → EReal) (d : S12288x1.Idx → EReal) (R : Fin 12288) (q : Fin 16) :
    ∑ k : Fin 6, term2 a M d R q k = nsum2 a M d R q :=
  sum_6_2048_rows fun n => a (ix2 R n) * (M (ix2 n q) * d (ix2 n 0))

def termN2 (a : S12288x12288.Idx → EReal) (M : S12288x16.Idx → EReal) (d : S12288x1.Idx → EReal) (R : Fin 12288) (q : Fin 16)
    (k : ℕ) : EReal :=
  if h : k < 6 then term2 a M d R q ⟨k, h⟩ else 0

abbrev blk2_0 (c : Dev nD) (t : Fin cfg2.N) : Vec Ideal S2048x2048 .bf16 := iblk2 V c 0 t

abbrev blk2_1 (c : Dev nD) (t : Fin cfg2.N) : Vec Ideal S2048x16 .f32 := iblk2 V c 1 t
abbrev blk2_2 (c : Dev nD) (t : Fin cfg2.N) : Vec Ideal S2048x1 .f32 := iblk2 V c 2 t

abbrev blk2_3 (c : Dev nD) (t : Fin cfg2.N) : Vec Ideal S2048x16 .f32 := iblk2 V c 3 t
abbrev blk2_4 (c : Dev nD) (t : Fin cfg2.N) : Vec Ideal S2048x1 .f32 := iblk2 V c 4 t

abbrev blk2_5 (c : Dev nD) (t : Fin cfg2.N) : Vec Ideal S1x16 .f32 := iblk2 V c 5 t

theorem idx_facts2 : ∀ t : Fin cfg2.N,
    win2_0.index t (0 : Fin 2) = t.val / 6 ∧ win2_0.index t (1 : Fin 2) = t.val % 6
    ∧ win2_1.index t (0 : Fin 2) = t.val % 6 ∧ win2_1.index t (1 : Fin 2) = 0
    ∧ win2_2.index t (0 : Fin 2) = t.val % 6 ∧ win2_2.index t (1 : Fin 2) = 0
    ∧ win2_3.index t (0 : Fin 2) = t.val / 6 ∧ win2_3.index t (1 : Fin 2) = 0
    ∧ win2_4.index t (0 : Fin 2) = t.val / 6 ∧ win2_4.index t (1 : Fin 2) = 0
    ∧ win2_5.index t (0 : Fin 2) = 0 ∧ win2_5.index t (1 : Fin 2) = 0
    ∧ win2_6.index t (0 : Fin 2) = t.val / 6 ∧ win2_6.index t (1 : Fin 2) = 0 :=
  (by decide +kernel : ∀ t : Fin grid2.N, _)

theorem blk2_0_at (c : Dev nD) (t : Fin cfg2.N) (p j : Fin 2048) (R S : Fin 12288)
    (hR : R.val = 2048 * (t.val / 6) + p.val) (hS : S.val = 2048 * (t.val % 6) + j.val) :
    blk2_0 V c t (ix2 p j) = (V c main_v0_0 : S12288x12288.Idx → EReal) (ix2 R S) := by
  obtain ⟨e0, e1, -⟩ := idx_facts2 t
  show (V c main_v0_0 : S12288x12288.Idx → EReal) (((cfg2.win 0).blk t).view.emb (ix2 p j)) = _
  refine congrArg _ (funext fun a => Fin.ext ?_)
  match a with
  | ⟨0, _⟩ => show win2_0.index t (0 : Fin 2) * 2048 + 1 * p.val = R.val; omega
  | ⟨1, _⟩ => show win2_0.index t (1 : Fin 2) * 2048 + 1 * j.val = S.val; omega

theorem blk2_1_at (c : Dev nD) (t : Fin cfg2.N) (j : Fin 2048) (q : Fin 16) (S : Fin 12288)
    (hS : S.val = 2048 * (t.val % 6) + j.val) :
    blk2_1 V c t (ix2 j q) = (V c main_v1 : S12288x16.Idx → EReal) (ix2 S q) := by
  obtain ⟨-, -, e0, e1, -⟩ := idx_facts2 t
  show (V c main_v1 : S12288x16.Idx → EReal) (((cfg2.win 1).blk t).view.emb (ix2 j q)) = _
  refine congrArg _ (funext fun a => Fin.ext ?_)
  match a with
  | ⟨0, _⟩ => show win2_1.index t (0 : Fin 2) * 2048 + 1 * j.val = S.val; omega
  | ⟨1, _⟩ => show win2_1.index t (1 : Fin 2) * 16 + 1 * q.val = q.val; omega

theorem blk2_2_at (c : Dev nD) (t : Fin cfg2.N) (j : Fin 2048) (S : Fin 12288) (hS : S.val = 2048 * (t.val % 6) + j.val) :
    blk2_2 V c t (ix2 j (0 : Fin 1)) = (V c main_v0_1 : S12288x1.Idx → EReal) (ix2 S (0 : Fin 1)) := by
  obtain ⟨-, -, -, -, e0, e1, -⟩ := idx_facts2 t
  show (V c main_v0_1 : S12288x1.Idx → EReal) (((cfg2.win 2).blk t).view.emb (ix2 j (0 : Fin 1))) = _
  refine congrArg _ (funext fun a => Fin.ext ?_)
  match a with
  | ⟨0, _⟩ => show win2_2.index t (0 : Fin 2) * 2048 + 1 * j.val = S.val; omega
  | ⟨1, _⟩ => show win2_2.index t (1 : Fin 2) * 1 + 1 * 0 = 0; omega

theorem blk2_3_at (c : Dev nD) (t : Fin cfg2.N) (p : Fin 2048) (q : Fin 16) (R : Fin 12288)
    (hR : R.val = 2048 * (t.val / 6) + p.val) :
    blk2_3 V c t (ix2 p q) = (V c main_v1 : S12288x16.Idx → EReal) (ix2 R q) := by
  obtain ⟨-, -, -, -, -, -, e0, e1, -⟩ := idx_facts2 t
  show (V c main_v1 : S12288x16.Idx → EReal) (((cfg2.win 3).blk t).view.emb (ix2 p q)) = _
  refine congrArg _ (funext fun a => Fin.ext ?_)
  match a with
  | ⟨0, _⟩ => show win2_3.index t (0 : Fin 2) * 2048 + 1 * p.val = R.val; omega
  | ⟨1, _⟩ => show win2_3.index t (1 : Fin 2) * 16 + 1 * q.val = q.val; omega

theorem blk2_4_at (c : Dev nD) (t : Fin cfg2.N) (p : Fin 2048) (R : Fin 12288) (hR : R.val = 2048 * (t.val / 6) + p.val) :
    blk2_4 V c t (ix2 p (0 : Fin 1)) = (V c main_v0_1 : S12288x1.Idx → EReal) (ix2 R (0 : Fin 1)) := by
  obtain ⟨-, -, -, -, -, -, -, -, e0, e1, -⟩ := idx_facts2 t
  show (V c main_v0_1 : S12288x1.Idx → EReal) (((cfg2.win 4).blk t).view.emb (ix2 p (0 : Fin 1))) = _
  refine congrArg _ (funext fun a => Fin.ext ?_)
  match a with
  | ⟨0, _⟩ => show win2_4.index t (0 : Fin 2) * 2048 + 1 * p.val = R.val; omega
  | ⟨1, _⟩ => show win2_4.index t (1 : Fin 2) * 1 + 1 * 0 = 0; omega

theorem blk2_5_at (c : Dev nD) (t : Fin cfg2.N) (q : Fin 16) :
    blk2_5 V c t (ix2 (0 : Fin 1) q) = (V c main_v2 : S1x16.Idx → EReal) (ix2 (0 : Fin 1) q) := by
  obtain ⟨-, -, -, -, -, -, -, -, -, -, e0, e1, -⟩ := idx_facts2 t
  show (V c main_v2 : S1x16.Idx → EReal) (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 16 + 1 * q.val = q.val; omega

theorem tile2_at (c : Dev nD) (t : Fin cfg2.N) (p : Fin 2048) (q : Fin 16) (R : Fin 12288)
    (hR : R.val = 2048 * (t.val / 6) + p.val) (k : Fin 6) (hk : k.val = t.val % 6) :
    (∑ j : Fin 2048, blk2_0 V c t (ix2 p j) * (blk2_1 V c t (ix2 j q) * blk2_2 V c t (ix2 j (0 : Fin 1))))
      = term2 (V c main_v0_0) (V c main_v1) (V c main_v0_1) R q k := by
  unfold term2
  refine Finset.sum_congr rfl fun j _ => ?_
  rw [blk2_0_at V c t p j R ⟨2048 * k.val + j.val, by omega⟩ hR (by show 2048 * k.val + j.val = _; omega),
    blk2_1_at V c t j q ⟨2048 * k.val + j.val, by omega⟩ (by show 2048 * k.val + j.val = _; omega),
    blk2_2_at V c t j ⟨2048 * k.val + j.val, by omega⟩ (by show 2048 * k.val + j.val = _; omega)]

theorem scratch2_first (c : Dev nD) (t : Fin cfg2.N) (h0 : t.val % 6 = 0) (p : Fin 2048) (q : Fin 16) :
    (outsAt2 V c t.val t.isLt).2 (ix2 p q)
      = 0 + ∑ j : Fin 2048, blk2_0 V c t (ix2 p j) * (blk2_1 V c t (ix2 j q) * blk2_2 V c t (ix2 j (0 : Fin 1))) := by
  rw [outsAt2_A V c t h0]
  dsimp only
  rw [sout2_A_0_eq c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseA2 t h0).1 (caseA2 t h0).2 (iblk2 V c 0 t) (iblk2 V c 1 t) (iblk2 V c 2 t)]
  refine (k2_pay2_apply (blk2_0 V c t) (blk2_1 V c t) (blk2_2 V c t) (k2_pay1 (F := Ideal)) p q).trans ?_
  rw [k2_pay1_apply]

theorem scratch2_next (c : Dev nD) (n : ℕ) (hn : n + 1 < cfg2.N) (h0 : ¬(n + 1) % 6 = 0) (p : Fin 2048) (q : Fin 16) :
    (outsAt2 V c (n + 1) hn).2 (ix2 p q)
      = (outsAt2 V c n (Nat.lt_of_succ_lt hn)).2 (ix2 p q)
        + ∑ j : Fin 2048, blk2_0 V c ⟨n + 1, hn⟩ (ix2 p j) * (blk2_1 V c ⟨n + 1, hn⟩ (ix2 j q) * blk2_2 V c ⟨n + 1, hn⟩ (ix2 j (0 : Fin 1))) := by
  generalize ht : (⟨n + 1, hn⟩ : Fin cfg2.N) = t
  have hv : t.val = n + 1 := by rw [← ht]
  have h0' : ¬t.val % 6 = 0 := by rw [hv]; exact h0
  show (outsAt2 V c (⟨n + 1, hn⟩ : Fin cfg2.N).val (⟨n + 1, hn⟩ : Fin cfg2.N).isLt).2 (ix2 p q) = (outsAt2 V c ((⟨n + 1, hn⟩ : Fin cfg2.N).val - 1) (Nat.lt_of_le_of_lt (Nat.sub_le _ _) (⟨n + 1, hn⟩ : Fin cfg2.N).isLt)).2 (ix2 p q) + _
  rw [ht]
  by_cases h1 : t.val % 6 = 5
  · rw [outsAt2_C V c t h1]
    dsimp only
    rw [sout2_C_0_eq c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h1).1 (caseC2 t h1).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2]
    exact k2_pay2_apply (blk2_0 V c t) (blk2_1 V c t) (blk2_2 V c t) (outsAt2 V c (t.val - 1) (Nat.lt_of_le_of_lt (Nat.sub_le _ _) t.isLt)).2 p q
  · rw [outsAt2_B V c t h0' h1]
    dsimp only
    rw [sout2_B_0_eq c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseB2 t h0' h1).1 (caseB2 t h0' h1).2 (iblk2 V c 0 t) (iblk2 V c 1 t) (iblk2 V c 2 t) (outsAt2 V c (t.val - 1) (Nat.lt_of_le_of_lt (Nat.sub_le _ _) t.isLt)).2]
    exact k2_pay2_apply (blk2_0 V c t) (blk2_1 V c t) (blk2_2 V c t) (outsAt2 V c (t.val - 1) (Nat.lt_of_le_of_lt (Nat.sub_le _ _) t.isLt)).2 p q

theorem lt2 {i k : ℕ} (hi : i < 6) (hk : k < 6) : 6 * i + k < cfg2.N := by
  have hN : cfg2.N = 36 := N_2
  omega

theorem scratch2_inv (c : Dev nD) (i : ℕ) (hi : i < 6) (p : Fin 2048) (q : Fin 16) (R : Fin 12288) (hR : R.val = 2048 * i + p.val) :
    ∀ (k : ℕ) (hk : k < 6), (outsAt2 V c (6 * i + k) (lt2 hi hk)).2 (ix2 p q)
      = ∑ k' ∈ Finset.range (k + 1), termN2 (V c main_v0_0) (V c main_v1) (V c main_v0_1) R q k'
  | 0, hk => by
    have h0 : (⟨6 * i + 0, lt2 hi hk⟩ : Fin cfg2.N).val % 6 = 0 := by show (6 * i + 0) % 6 = 0; omega
    refine (scratch2_first V c ⟨6 * i + 0, lt2 hi hk⟩ h0 p q).trans ?_
    rw [Finset.sum_range_one, zero_add,
      tile2_at V c ⟨6 * i + 0, lt2 hi hk⟩ p q R (by show R.val = 2048 * ((6 * i + 0) / 6) + p.val; omega) ⟨0, hk⟩ (by show 0 = (6 * i + 0) % 6; omega)]
    unfold termN2
    rw [dif_pos hk]
  | k + 1, hk => by
    have h0 : ¬(6 * i + k + 1) % 6 = 0 := by omega
    refine (scratch2_next V c (6 * i + k) (lt2 hi hk) h0 p q).trans ?_
    rw [Finset.sum_range_succ _ (k + 1)]
    refine congrArg₂ (· + ·) (scratch2_inv c i hi p q R hR k (Nat.lt_of_succ_lt hk)) ?_
    rw [tile2_at V c ⟨6 * i + k + 1, lt2 hi hk⟩ p q R (by show R.val = 2048 * ((6 * i + k + 1) / 6) + p.val; omega) ⟨k + 1, hk⟩ (by show k + 1 = (6 * i + k + 1) % 6; omega)]
    unfold termN2
    rw [dif_pos hk]

theorem scratch2_last (c : Dev nD) (t : Fin cfg2.N) (h5 : t.val % 6 = 5) (p : Fin 2048) (q : Fin 16) (R : Fin 12288)
    (hR : R.val = 2048 * (t.val / 6) + p.val) :
    (outsAt2 V c t.val t.isLt).2 (ix2 p q)
      = nsum2 (V c main_v0_0) (V c main_v1) (V c main_v0_1) R q := by
  have hN : cfg2.N = 36 := N_2
  have hi : t.val / 6 < 6 := by have := t.isLt; omega
  have key : ∀ (n : ℕ) (hn : n < cfg2.N), n = 6 * (t.val / 6) + 5 → (outsAt2 V c n hn).2 (ix2 p q)
      = ∑ k' ∈ Finset.range (5 + 1), termN2 (V c main_v0_0) (V c main_v1) (V c main_v0_1) R q k' := by
    intro n hn e
    subst e
    exact scratch2_inv V c (t.val / 6) hi p q R hR 5 (by decide)
  rw [key t.val t.isLt (by omega), Finset.sum_range, ← sum_term2]
  refine Finset.sum_congr rfl fun k _ => ?_
  unfold termN2
  rw [dif_pos k.isLt]

theorem out2_last (c : Dev nD) (t : Fin cfg2.N) (h5 : t.val % 6 = 5) (p : Fin 2048) (q : Fin 16) :
    (outsAt2 V c t.val t.isLt).1 (ix2 p q)
      = max (blk2_4 V c t (ix2 p (0 : Fin 1)) * (outsAt2 V c t.val t.isLt).2 (ix2 p q)
          + (blk2_4 V c t (ix2 p (0 : Fin 1)) * blk2_4 V c t (ix2 p (0 : Fin 1))) * blk2_3 V c t (ix2 p q)
          + blk2_5 V c t (ix2 (0 : Fin 1) q)) 0 := by
  rw [outsAt2_C V c t h5]
  dsimp only
  rw [out2_C_6_eq c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h5).1 (caseC2 t h5).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
    sout2_C_0_eq c (grid2.coords t) (stg2_0 t) (hstg2_0 t) (stg2_1 t) (hstg2_1 t) (stg2_2 t) (hstg2_2 t) (stg2_3 t) (hstg2_3 t) (stg2_4 t) (hstg2_4 t) (stg2_5 t) (hstg2_5 t) (stg2_6 t) (hstg2_6 t) scr2 (Memref.isWhole_whole _) (caseC2 t h5).1 (caseC2 t h5).2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2]
  exact k2_pay3_apply (blk2_4 V c t) (blk2_3 V c t) _ (blk2_5 V c t) p q

theorem last2_at (c : Dev nD) (t : Fin cfg2.N) (h5 : t.val % 6 = 5) (z : S2048x16.Idx) (r : S12288x16.Idx)
    (h0 : (r 0).val = 2048 * (t.val / 6) + (z 0).val) (h1 : (r 1).val = (z 1).val) :
    (outsAt2 V c t.val t.isLt).1 z = agg2 (V c main_v0_0) (V c main_v1) (V c main_v0_1) (V c main_v2) r := by
  obtain ⟨p, q, rfl⟩ : ∃ (p : Fin 2048) (q : Fin 16), z = ix2 p q := ⟨z 0, z 1, eq_ix2 z⟩
  obtain ⟨R, Q, rfl⟩ : ∃ (R : Fin 12288) (Q : Fin 16), r = ix2 R Q := ⟨r 0, r 1, eq_ix2 r⟩
  obtain rfl : Q = q := Fin.ext h1
  rw [out2_last V c t h5 p Q, scratch2_last V c t h5 p Q R h0, blk2_4_at V c t p R h0, blk2_3_at V c t p Q R h0, blk2_5_at V c t Q]

theorem flushed2_eq (c : Dev nD) (t : Fin cfg2.N) (hf : (cfg2.win 6).flush t = true) :
    (dat2 (F := Ideal) V c).flushed 6 t
      = ((cfg2.win 6).blk t).view.read (Elt Ideal) (agg2 (V c main_v0_0) (V c main_v1) (V c main_v0_1) (V c main_v2)) := by
  have h5 : t.val % 6 = 5 := (flush2_6 t).mp hf
  obtain ⟨-, -, -, -, -, -, -, -, -, -, -, -, e0, e1⟩ := idx_facts2 t
  show (cfg2.win 6).cut (grid2.coords t) ((dat2 V c).after 6 t) = _
  rw [after2_6]
  funext y
  show (outsAt2 V c t.val t.isLt).1 _ = agg2 (V c main_v0_0) (V c main_v1) (V c main_v0_1) (V c main_v2) (((cfg2.win 6).blk t).view.emb y)
  refine last2_at V c t h5 _ _ ?_ ?_
  · show win2_6.index t (0 : Fin 2) * 2048 + 1 * (y 0).val = 2048 * (t.val / 6) + (y 0).val; omega
  · show win2_6.index t (1 : Fin 2) * 16 + 1 * (y 1).val = (y 1).val; omega

theorem mem_blk2_6 (t : Fin cfg2.N) (i : S12288x16.Idx) :
    i ∈ ((cfg2.win 6).blk t).view.set ↔ ∀ a : Fin 2, win2_6.index t a * S2048x16.size a ≤ (i a).val ∧ (i a).val < win2_6.index t a * S2048x16.size a + S2048x16.size a := by
  show i ∈ ((View.whole main_v3).slice (win2_6.rect t)).set ↔ _
  rw [View.set_slice_whole, Rect.mem_set_unit]
  exact Iff.rfl

theorem cover2_6 (i : S12288x16.Idx) : ∃ t : Fin cfg2.N, (cfg2.win 6).flush t = true ∧ i ∈ ((cfg2.win 6).blk t).view.set := by
  have hN : cfg2.N = 36 := N_2
  have hi0 : (i 0).val < 12288 := (i 0).isLt
  have hi1 : (i 1).val < 16 := (i 1).isLt
  refine ⟨⟨6 * ((i 0).val / 2048) + 5, by omega⟩, (flush2_6 _).mpr (by show (6 * ((i 0).val / 2048) + 5) % 6 = 5; omega), ?_⟩
  rw [mem_blk2_6]
  obtain ⟨-, -, -, -, -, -, -, -, -, -, -, -, e0, e1⟩ := idx_facts2 ⟨6 * ((i 0).val / 2048) + 5, by omega⟩
  intro a
  match a with
  | ⟨0, _⟩ =>
    show win2_6.index _ (0 : Fin 2) * 2048 ≤ (i 0).val ∧ (i 0).val < win2_6.index _ (0 : Fin 2) * 2048 + 2048
    rw [e0]; dsimp only; omega
  | ⟨1, _⟩ =>
    show win2_6.index _ (1 : Fin 2) * 16 ≤ (i 1).val ∧ (i 1).val < win2_6.index _ (1 : Fin 2) * 16 + 16
    rw [e1]; omega

theorem arrAt2 (c : Dev nD) : ((dat2 (F := Ideal) V c).arrAt 6 cfg2.N : S12288x16.Idx → EReal)
    = agg2 (V c main_v0_0) (V c main_v1) (V c main_v0_1) (V c main_v2) :=
  (dat2 (F := Ideal) V c).arrAt_eq_of_cover 6 (agg2 (V c main_v0_0) (V c main_v1) (V c main_v0_1) (V c main_v2))
    (fun t hf => flushed2_eq V c t hf) cover2_6

end Cert.KernelIdeal.HandVal

end
-- ==== Proof.Val.Mat3.lean ====
import proofs.«111342_j55946243997874_2_alg».proof.Proof.KI.Region3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem lhs3_0 (i : S2048x40.Idx) (q : dot_S2048x16_S16x40_S2048x40_1_0_0_1_n_n.contr.Idx) :
    (dot_S2048x16_S16x40_S2048x40_1_0_0_1_n_n.lhsIdx i q 0).val = (i 0).val := by
  unfold DotDims.lhsIdx
  rw [dif_neg (show ¬(0 : Fin S2048x16.rank) ∈ dot_S2048x16_S16x40_S2048x40_1_0_0_1_n_n.lhsBatch by decide), dif_pos (show (0 : Fin S2048x16.rank) ∈ dot_S2048x16_S16x40_S2048x40_1_0_0_1_n_n.lhsNonContracting by decide)]
  rfl

theorem lhs3_1 (i : S2048x40.Idx) (q : dot_S2048x16_S16x40_S2048x40_1_0_0_1_n_n.contr.Idx) :
    (dot_S2048x16_S16x40_S2048x40_1_0_0_1_n_n.lhsIdx i q 1).val = (q ⟨0, by decide⟩).val :=
  dot_S2048x16_S16x40_S2048x40_1_0_0_1_n_n.lhsIdx_val_of_single rfl i q

theorem rhs3_0 (i : S2048x40.Idx) (q : dot_S2048x16_S16x40_S2048x40_1_0_0_1_n_n.contr.Idx) :
    (dot_S2048x16_S16x40_S2048x40_1_0_0_1_n_n.rhsIdx i q 0).val = (q ⟨0, by decide⟩).val :=
  dot_S2048x16_S16x40_S2048x40_1_0_0_1_n_n.rhsIdx_val_of_single rfl i q

theorem rhs3_1 (i : S2048x40.Idx) (q : dot_S2048x16_S16x40_S2048x40_1_0_0_1_n_n.contr.Idx) :
    (dot_S2048x16_S16x40_S2048x40_1_0_0_1_n_n.rhsIdx i q 1).val = (i 1).val := by
  unfold DotDims.rhsIdx
  rw [dif_neg (show ¬(1 : Fin S16x40.rank) ∈ dot_S2048x16_S16x40_S2048x40_1_0_0_1_n_n.rhsBatch by decide), dif_pos (show (1 : Fin S16x40.rank) ∈ dot_S2048x16_S16x40_S2048x40_1_0_0_1_n_n.rhsNonContracting by decide)]
  rfl

set_option maxHeartbeats 400000 in

theorem pay3_apply (x0 : Vec Ideal S2048x16 .f32) (x1 : Vec Ideal S16x40 .f32) (p : Fin 2048) (q : Fin 40) :
    k3_pay1 x0 x1 (ix2 p q) = ∑ f : Fin 16, x0 (ix2 p f) * x1 (ix2 f q) := by
  unfold k3_pay1
  try simp only [shapeCast_self]
  show FloatOps.matmul (F := Ideal) (φ₁ := .bf16) (φ₂ := .bf16) dot_S2048x16_S16x40_S2048x40_1_0_0_1_n_n none (x0 : FVec Ideal S2048x16 .bf16) (x1 : FVec Ideal S16x40 .bf16) (constant S2048x40 .f32 0x00000000#32) (ix2 p q) = _
  rw [Ideal.matmul_constant_zero_apply, ← Equiv.sum_comp (contrEquiv1 dot_S2048x16_S16x40_S2048x40_1_0_0_1_n_n 16 rfl rfl).symm]
  refine Finset.sum_congr rfl fun f _ => ?_
  have hf := contrEquiv1_symm_val dot_S2048x16_S16x40_S2048x40_1_0_0_1_n_n 16 rfl rfl f
  have el : dot_S2048x16_S16x40_S2048x40_1_0_0_1_n_n.lhsIdx (ix2 p q) ((contrEquiv1 dot_S2048x16_S16x40_S2048x40_1_0_0_1_n_n 16 rfl rfl).symm f) = ix2 p f := funext fun a => Fin.ext (by
    match a with
    | ⟨0, _⟩ => exact lhs3_0 _ _
    | ⟨1, _⟩ => exact (lhs3_1 _ _).trans hf)
  have er : dot_S2048x16_S16x40_S2048x40_1_0_0_1_n_n.rhsIdx (ix2 p q) ((contrEquiv1 dot_S2048x16_S16x40_S2048x40_1_0_0_1_n_n 16 rfl rfl).symm f) = ix2 f q := funext fun a => Fin.ext (by
    match a with
    | ⟨0, _⟩ => exact (rhs3_0 _ _).trans hf
    | ⟨1, _⟩ => exact rhs3_1 _ _)
  rw [el, er]

abbrev prod3 (X : S12288x16.Idx → EReal) (W : S16x40.Idx → EReal) : S12288x40.Idx → EReal :=
  fun y => ∑ f : Fin 16, X (ix2 (y 0) f) * W (ix2 f (y 1))

theorem pay3_at (x0 : Vec Ideal S2048x16 .f32) (x1 : Vec Ideal S16x40 .f32) (X : S12288x16.Idx → EReal) (W : S16x40.Idx → EReal)
    (y : S2048x40.Idx) (r : S12288x40.Idx)
    (h0 : ∀ f : Fin 16, x0 (ix2 (y 0) f) = X (ix2 (r 0) f)) (h1 : ∀ f : Fin 16, x1 (ix2 f (y 1)) = W (ix2 f (r 1))) :
    k3_pay1 x0 x1 y = prod3 X W r := by
  obtain ⟨p, q, rfl⟩ : ∃ (p : Fin 2048) (q : Fin 40), y = ix2 p q := ⟨y 0, y 1, eq_ix2 y⟩
  rw [pay3_apply]
  exact Finset.sum_congr rfl fun f _ => congrArg₂ (· * ·) (h0 f) (h1 f)

theorem hz3 : (![0, 0] : Fin 2 → Nat) = fun _ => 0 := funext fun a => by fin_cases a <;> rfl

theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

set_option maxHeartbeats 400000 in

theorem flushed3_eq (c : Dev nD) (t : Fin cfg3.N) :
    (dat3 (F := Ideal) V c).flushed 2 t = ((cfg3.win 2).blk t).view.read (Elt Ideal) (prod3 (V c main_v3) (V c main_arg4)) := by
  show (cfg3.win 2).cut (grid3.coords t) ((dat3 V c).after 2 t) = _
  rw [after3_2]
  unfold out3_2
  rw [View.canon_unit_zero hz3]
  simp only [View.ld_unit_zero (S := S2048x16) hz3, View.ld_unit_zero (S := S16x40) hz3]
  obtain ⟨e0, e1, e2, e3, e4, e5⟩ := idx_facts3 t
  funext y
  show k3_pay1 (iblk3 V c 0 t) (iblk3 V c 1 t) _ = prod3 (V c main_v3) (V c main_arg4) (((cfg3.win 2).blk t).view.emb y)
  refine pay3_at (iblk3 V c 0 t) (iblk3 V c 1 t) (V c main_v3) (V c main_arg4) _ _ (fun f => ?_) (fun f => ?_)
  ·
    show (V c main_v3 : S12288x16.Idx → EReal) (((cfg3.win 0).blk t).view.emb (ix2 ⟨(y 0).val, (y 0).isLt⟩ f)) = (V c main_v3 : S12288x16.Idx → EReal) _
    refine congrArg _ (funext fun a => Fin.ext ?_)
    match a with
    | ⟨0, _⟩ => show win3_0.index t (0 : Fin 2) * 2048 + 1 * (y 0).val = win3_2.index t (0 : Fin 2) * 2048 + 1 * (y 0).val; omega
    | ⟨1, _⟩ => show win3_0.index t (1 : Fin 2) * 16 + 1 * f.val = f.val; omega
  ·
    show (V c main_arg4 : S16x40.Idx → EReal) (((cfg3.win 1).blk t).view.emb (ix2 f ⟨(y 1).val, (y 1).isLt⟩)) = (V c main_arg4 : S16x40.Idx → EReal) _
    refine congrArg _ (funext fun a => Fin.ext ?_)
    match a with
    | ⟨0, _⟩ => show win3_1.index t (0 : Fin 2) * 16 + 1 * f.val = f.val; omega
    | ⟨1, _⟩ => show win3_1.index t (1 : Fin 2) * 40 + 1 * (y 1).val = win3_2.index t (1 : Fin 2) * 40 + 1 * (y 1).val; omega

theorem mem_blk3 (t : Fin cfg3.N) (i : S12288x40.Idx) :
    i ∈ ((cfg3.win 2).blk t).view.set ↔ ∀ a : Fin 2, win3_2.index t a * S2048x40.size a ≤ (i a).val ∧ (i a).val < win3_2.index t a * S2048x40.size a + S2048x40.size a := by
  show i ∈ ((View.whole main_v4).slice (win3_2.rect t)).set ↔ _
  rw [View.set_slice_whole, Rect.mem_set_unit]
  exact Iff.rfl

theorem cover3 (i : S12288x40.Idx) : ∃ t : Fin cfg3.N, (cfg3.win 2).flush t = true ∧ i ∈ ((cfg3.win 2).blk t).view.set := by
  have hi0 : (i 0).val < 12288 := (i 0).isLt
  have hi1 : (i 1).val < 40 := (i 1).isLt
  have hN : cfg3.N = 6 := N_3
  refine ⟨⟨(i 0).val / 2048, by rw [hN]; omega⟩, flush3_2 _, ?_⟩
  rw [mem_blk3]
  obtain ⟨-, -, -, -, e4, e5⟩ := idx_facts3 ⟨(i 0).val / 2048, by rw [hN]; omega⟩
  intro a
  match a with
  | ⟨0, _⟩ => show win3_2.index _ (0 : Fin 2) * 2048 ≤ (i 0).val ∧ (i 0).val < win3_2.index _ (0 : Fin 2) * 2048 + 2048; rw [e4]; show (i 0).val / 2048 * 2048 ≤ (i 0).val ∧ (i 0).val < (i 0).val / 2048 * 2048 + 2048; omega
  | ⟨1, _⟩ => show win3_2.index _ (1 : Fin 2) * 40 ≤ (i 1).val ∧ (i 1).val < win3_2.index _ (1 : Fin 2) * 40 + 40; rw [e5]; omega

theorem arrAt3 (c : Dev nD) : ((dat3 (F := Ideal) V c).arrAt 2 cfg3.N : S12288x40.Idx → EReal)
    = fun y : S12288x40.Idx => ∑ f : Fin 16, @HMul.hMul EReal EReal EReal instHMul (V c main_v3 (ix2 (y 0) f)) (V c main_arg4 (ix2 f (y 1))) :=
  (dat3 (F := Ideal) V c).arrAt_eq_of_cover 2 (prod3 (V c main_v3) (V c main_arg4)) (fun t _ => flushed3_eq V c t) cover3

end Cert.KernelIdeal.HandVal

end
-- ==== Proof.Val.Pay4.lean ====
import proofs.«111342_j55946243997874_2_alg».proof.Proof.Gen.KernelIdeal.Skeleton
import proofs.«111342_j55946243997874_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.HandVal

open Cert.KernelIdeal Cert.KernelIdeal.Gen Idealize.ShloMosaic Idealize.ShloMosaic.ValueIdx

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem k4_pay1_apply (y : S2048x40.Idx) : k4_pay1 (F := Ideal) y = 0 := by
  unfold k4_pay1
  simp only [shapeCast_self]
  exact Ideal.ofBits_zero_f32

private theorem lhs4_0 (i : S2048x40.Idx) (r : dot_S2048x2048_S2048x40_S2048x40_1_0_0_1_n_n.contr.Idx) :
    (dot_S2048x2048_S2048x40_S2048x40_1_0_0_1_n_n.lhsIdx i r 0).val = (i 0).val := by
  unfold DotDims.lhsIdx
  rw [dif_neg (show ¬(0 : Fin S2048x2048.rank) ∈ dot_S2048x2048_S2048x40_S2048x40_1_0_0_1_n_n.lhsBatch by decide), dif_pos (show (0 : Fin S2048x2048.rank) ∈ dot_S2048x2048_S2048x40_S2048x40_1_0_0_1_n_n.lhsNonContracting by decide)]
  rfl

private theorem lhs4_1 (i : S2048x40.Idx) (r : dot_S2048x2048_S2048x40_S2048x40_1_0_0_1_n_n.contr.Idx) :
    (dot_S2048x2048_S2048x40_S2048x40_1_0_0_1_n_n.lhsIdx i r 1).val = (r ⟨0, by decide⟩).val :=
  dot_S2048x2048_S2048x40_S2048x40_1_0_0_1_n_n.lhsIdx_val_of_single rfl i r

private theorem rhs4_0 (i : S2048x40.Idx) (r : dot_S2048x2048_S2048x40_S2048x40_1_0_0_1_n_n.contr.Idx) :
    (dot_S2048x2048_S2048x40_S2048x40_1_0_0_1_n_n.rhsIdx i r 0).val = (r ⟨0, by decide⟩).val :=
  dot_S2048x2048_S2048x40_S2048x40_1_0_0_1_n_n.rhsIdx_val_of_single rfl i r

private theorem rhs4_1 (i : S2048x40.Idx) (r : dot_S2048x2048_S2048x40_S2048x40_1_0_0_1_n_n.contr.Idx) :
    (dot_S2048x2048_S2048x40_S2048x40_1_0_0_1_n_n.rhsIdx i r 1).val = (i 1).val := by
  unfold DotDims.rhsIdx
  rw [dif_neg (show ¬(1 : Fin S2048x40.rank) ∈ dot_S2048x2048_S2048x40_S2048x40_1_0_0_1_n_n.rhsBatch by decide), dif_pos (show (1 : Fin S2048x40.rank) ∈ dot_S2048x2048_S2048x40_S2048x40_1_0_0_1_n_n.rhsNonContracting by decide)]
  rfl

set_option maxHeartbeats 400000 in

private theorem mm4_apply (a : FVec Ideal S2048x2048 .bf16) (b : FVec Ideal S2048x40 .bf16) (p : Fin 2048) (q : Fin 40) :
    FloatOps.matmul (F := Ideal) dot_S2048x2048_S2048x40_S2048x40_1_0_0_1_n_n none a b (constant S2048x40 .f32 0x00000000#32) (ix2 p q)
      = ∑ j : Fin 2048, a (ix2 p j) * b (ix2 j q) := by
  rw [Ideal.matmul_constant_zero_apply, ← Equiv.sum_comp (contrEquiv1 dot_S2048x2048_S2048x40_S2048x40_1_0_0_1_n_n 2048 rfl rfl).symm]
  refine Finset.sum_congr rfl fun j _ => ?_
  have hj := contrEquiv1_symm_val dot_S2048x2048_S2048x40_S2048x40_1_0_0_1_n_n 2048 rfl rfl j
  have el : dot_S2048x2048_S2048x40_S2048x40_1_0_0_1_n_n.lhsIdx (ix2 p q) ((contrEquiv1 dot_S2048x2048_S2048x40_S2048x40_1_0_0_1_n_n 2048 rfl rfl).symm j) = ix2 p j := funext fun a => Fin.ext (by
    match a with
    | ⟨0, _⟩ => exact lhs4_0 _ _
    | ⟨1, _⟩ => exact (lhs4_1 _ _).trans hj)
  have er : dot_S2048x2048_S2048x40_S2048x40_1_0_0_1_n_n.rhsIdx (ix2 p q) ((contrEquiv1 dot_S2048x2048_S2048x40_S2048x40_1_0_0_1_n_n 2048 rfl rfl).symm j) = ix2 j q := funext fun a => Fin.ext (by
    match a with
    | ⟨0, _⟩ => exact (rhs4_0 _ _).trans hj
    | ⟨1, _⟩ => exact rhs4_1 _ _)
  rw [el, er]

set_option maxHeartbeats 400000 in

theorem k4_pay2_apply (v3 : Vec Ideal S2048x2048 .bf16) (v5 : Vec Ideal S2048x40 .f32) (v7 : Vec Ideal S2048x1 .f32) (v12 : Vec Ideal S2048x40 .f32) (p : Fin 2048) (q : Fin 40) :
    k4_pay2 v3 v5 v7 v12 (ix2 p q) = v12 (ix2 p q) + ∑ j : Fin 2048, v3 (ix2 p j) * (v5 (ix2 j q) * v7 (ix2 j 0)) := by
  unfold k4_pay2
  simp only [shapeCast_self]
  refine congrArg (v12 (ix2 p q) + ·) ?_
  refine (mm4_apply _ _ p q).trans ?_
  refine Finset.sum_congr rfl fun j _ => congrArg (v3 (ix2 p j) * ·) ?_
  exact congrArg (v5 (ix2 j q) * ·) (broadcastTo_a1_ab_apply v7 broadcasts_S2048x1_S2048x40 j q)

private abbrev score4 (v21 : FVec Ideal S2048x1 .f32) (v24 : FVec Ideal S2048x40 .f32) (v28 : FVec Ideal S2048x40 .f32) (v32 : FVec Ideal S1x40 .f32) :
    FVec Ideal S2048x40 .f32 :=
  addf (addf (mulf (broadcastTo S2048x40 v21 broadcasts_S2048x1_S2048x40) v28)
      (mulf (broadcastTo S2048x40 (mulf v21 v21) broadcasts_S2048x1_S2048x40) v24))
    (broadcastTo S2048x40 v32 broadcasts_S1x40_S2048x40)

private theorem score4_apply (v21 : FVec Ideal S2048x1 .f32) (v24 : FVec Ideal S2048x40 .f32) (v28 : FVec Ideal S2048x40 .f32) (v32 : FVec Ideal S1x40 .f32)
    (p : Fin 2048) (c : Fin 40) :
    score4 v21 v24 v28 v32 (ix2 p c)
      = v21 (ix2 p 0) * v28 (ix2 p c) + (v21 (ix2 p 0) * v21 (ix2 p 0)) * v24 (ix2 p c) + v32 (ix2 0 c) := by
  refine congrArg₂ (· + ·) (congrArg₂ (· + ·) ?_ ?_) ?_
  · exact congrArg (· * v28 (ix2 p c)) (broadcastTo_a1_ab_apply v21 broadcasts_S2048x1_S2048x40 p c)
  · exact congrArg (· * v24 (ix2 p c)) (broadcastTo_a1_ab_apply (mulf (F := Ideal) (s := S2048x1) (φ := .f32) v21 v21) broadcasts_S2048x1_S2048x40 p c)
  · exact broadcastTo_1b_ab_apply v32 broadcasts_S1x40_S2048x40 p c

private theorem negInf_f32 : Ideal.ofBits .f32 0xFF800000#32 = ⊥ := by simp [Ideal.ofBits, Ideal.ieee]

private theorem lift4 (p : Fin 2048) (c : Fin 40) : reduces_S2048x40_S2048.lift (ix1 p) c = ix2 p c :=
  funext fun a => Fin.ext (by match a with | ⟨0, _⟩ => rfl | ⟨1, _⟩ => rfl)

private theorem rowmax4_apply (x : FVec Ideal S2048x40 .f32) (p : Fin 2048) :
    multiReduction (F := Ideal) .maximumf [1] S2048 x 0xFF800000#32 reduces_S2048x40_S2048 (.inl rfl) rfl (ix1 p)
      = Cert.Spec.rowmax (fun c => x (ix2 p c)) := by
  refine (Ideal.multiReduction_maximumf_single x 0xFF800000#32 reduces_S2048x40_S2048 (.inl rfl) rfl (ix1 p)).trans ?_
  show (Finset.univ : Finset (Fin 40)).fold max (Ideal.ofBits .f32 0xFF800000#32) (fun c => x (reduces_S2048x40_S2048.lift (ix1 p) c)) = _
  rw [negInf_f32]
  unfold Cert.Spec.rowmax
  exact congrArg (fun f => (Finset.univ : Finset (Fin 40)).fold max ⊥ f) (funext fun c => congrArg x (lift4 p c))

private theorem rowsum4_apply (x : FVec Ideal S2048x40 .f32) (p : Fin 2048) :
    multiReduction (F := Ideal) .add [1] S2048 x 0x00000000#32 reduces_S2048x40_S2048 (.inl rfl) rfl (ix1 p)
      = ∑ c : Fin 40, x (ix2 p c) := by
  refine (Ideal.multiReduction_add_single x 0x00000000#32 reduces_S2048x40_S2048 (.inl rfl) rfl (ix1 p)).trans ?_
  show ∑ c : Fin 40, x (reduces_S2048x40_S2048.lift (ix1 p) c) = _
  exact Finset.sum_congr rfl fun c _ => congrArg x (lift4 p c)

private abbrev shift4 (x : FVec Ideal S2048x40 .f32) : FVec Ideal S2048x40 .f32 :=
  subf x (broadcastTo S2048x40
    (shapeCast S2048x1 (multiReduction (F := Ideal) .maximumf [1] S2048 x 0xFF800000#32 reduces_S2048x40_S2048 (.inl rfl) rfl) shapeCasts_S2048_S2048x1)
    broadcasts_S2048x1_S2048x40)

private theorem shift4_apply (x : FVec Ideal S2048x40 .f32) (p : Fin 2048) (c : Fin 40) :
    shift4 x (ix2 p c) = x (ix2 p c) - Cert.Spec.rowmax (fun c' => x (ix2 p c')) := by
  show x (ix2 p c) - _ = _
  refine congrArg (x (ix2 p c) - ·) ?_
  refine (broadcastTo_a1_ab_apply _ broadcasts_S2048x1_S2048x40 p c).trans ?_
  refine (shapeCast_a_a1_apply _ shapeCasts_S2048_S2048x1 p 0).trans ?_
  exact rowmax4_apply x p

private theorem tail4_apply (x : FVec Ideal S2048x40 .f32) (p : Fin 2048) (q : Fin 40) :
    subf (shift4 x) (broadcastTo S2048x40
        (log (shapeCast S2048x1 (multiReduction (F := Ideal) .add [1] S2048 (exp (shift4 x)) 0x00000000#32 reduces_S2048x40_S2048 (.inl rfl) rfl) shapeCasts_S2048_S2048x1))
        broadcasts_S2048x1_S2048x40) (ix2 p q)
      = Cert.Spec.lsm (fun c => x (ix2 p c)) q := by
  unfold Cert.Spec.lsm
  show shift4 x (ix2 p q) - _ = _
  refine congrArg₂ (· - ·) (shift4_apply x p q) ?_
  refine (broadcastTo_a1_ab_apply _ broadcasts_S2048x1_S2048x40 p q).trans ?_
  show Ideal.log _ = Ideal.log _
  refine congrArg Ideal.log ?_
  refine (shapeCast_a_a1_apply _ shapeCasts_S2048_S2048x1 p 0).trans ?_
  refine (rowsum4_apply _ p).trans ?_
  refine Finset.sum_congr rfl fun c _ => ?_
  show Ideal.exp _ = Ideal.exp _
  exact congrArg Ideal.exp (shift4_apply x p c)

set_option maxHeartbeats 400000 in

theorem k4_pay3_apply (v21 : Vec Ideal S2048x1 .f32) (v24 : Vec Ideal S2048x40 .f32) (v28 : Vec Ideal S2048x40 .f32) (v32 : Vec Ideal S1x40 .f32) (p : Fin 2048) (q : Fin 40) :
    k4_pay3 v21 v24 v28 v32 (ix2 p q) = Cert.Spec.lsm (fun c : Fin 40 => v21 (ix2 p 0) * v28 (ix2 p c) + (v21 (ix2 p 0) * v21 (ix2 p 0)) * v24 (ix2 p c) + v32 (ix2 0 c)) q := by
  unfold k4_pay3
  simp only [shapeCast_self]
  refine (tail4_apply (score4 v21 v24 v28 v32) p q).trans ?_
  exact congrArg (fun v => Cert.Spec.lsm v q) (funext fun c => score4_apply v21 v24 v28 v32 p c)

end Cert.KernelIdeal.HandVal

end
-- ==== Proof.Val.Agg4.lean ====
import proofs.«111342_j55946243997874_2_alg».proof.Proof.KI.Region4
import proofs.«111342_j55946243997874_2_alg».proof.Proof.Val.Pay4
import proofs.«111342_j55946243997874_2_alg».proof.Proof.Val.Sums
import proofs.«111342_j55946243997874_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

abbrev adj4 (c : Dev nD) : S12288x12288.Idx → EReal := V c main_v0_0

abbrev feat4 (c : Dev nD) : S12288x40.Idx → EReal := V c main_v4

abbrev dinv4 (c : Dev nD) : S12288x1.Idx → EReal := V c main_v0_1

abbrev bias4 (c : Dev nD) : S1x40.Idx → EReal := V c main_v5

abbrev ablk4 (c : Dev nD) (t : Fin cfg4.N) : Vec Ideal S2048x2048 .bf16 := iblk4 V c 0 t

abbrev mkblk4 (c : Dev nD) (t : Fin cfg4.N) : Vec Ideal S2048x40 .f32 := iblk4 V c 1 t

abbrev dkblk4 (c : Dev nD) (t : Fin cfg4.N) : Vec Ideal S2048x1 .f32 := iblk4 V c 2 t

abbrev miblk4 (c : Dev nD) (t : Fin cfg4.N) : Vec Ideal S2048x40 .f32 := iblk4 V c 3 t

abbrev diblk4 (c : Dev nD) (t : Fin cfg4.N) : Vec Ideal S2048x1 .f32 := iblk4 V c 4 t

abbrev bblk4 (c : Dev nD) (t : Fin cfg4.N) : Vec Ideal S1x40 .f32 := iblk4 V c 5 t

theorem idx_facts4 : ∀ t : Fin cfg4.N,
    win4_0.index t (0 : Fin 2) = t.val / 6 ∧ win4_0.index t (1 : Fin 2) = t.val % 6
    ∧ win4_1.index t (0 : Fin 2) = t.val % 6 ∧ win4_1.index t (1 : Fin 2) = 0
    ∧ win4_2.index t (0 : Fin 2) = t.val % 6 ∧ win4_2.index t (1 : Fin 2) = 0
    ∧ win4_3.index t (0 : Fin 2) = t.val / 6 ∧ win4_3.index t (1 : Fin 2) = 0
    ∧ win4_4.index t (0 : Fin 2) = t.val / 6 ∧ win4_4.index t (1 : Fin 2) = 0
    ∧ win4_5.index t (0 : Fin 2) = 0 ∧ win4_5.index t (1 : Fin 2) = 0
    ∧ win4_6.index t (0 : Fin 2) = t.val / 6 ∧ win4_6.index t (1 : Fin 2) = 0 :=
  (by decide +kernel : ∀ t : Fin grid4.N, _)

theorem ablk4_apply (c : Dev nD) (t : Fin cfg4.N) (p j : Fin 2048) (r n : Fin 12288)
    (hr : r.val = 2048 * (t.val / 6) + p.val) (hn : n.val = 2048 * (t.val % 6) + j.val) :
    ablk4 V c t (ix2 p j) = adj4 V c (ix2 r n) := by
  obtain ⟨e0, e1, -⟩ := idx_facts4 t
  show (V c main_v0_0 : S12288x12288.Idx → EReal) (((cfg4.win 0).blk t).view.emb (ix2 p j)) = (V c main_v0_0 : S12288x12288.Idx → EReal) _
  refine congrArg _ (funext fun a => Fin.ext ?_)
  match a with
  | ⟨0, _⟩ => show win4_0.index t (0 : Fin 2) * 2048 + 1 * p.val = r.val; omega
  | ⟨1, _⟩ => show win4_0.index t (1 : Fin 2) * 2048 + 1 * j.val = n.val; omega

theorem mkblk4_apply (c : Dev nD) (t : Fin cfg4.N) (j : Fin 2048) (q : Fin 40) (n : Fin 12288)
    (hn : n.val = 2048 * (t.val % 6) + j.val) :
    mkblk4 V c t (ix2 j q) = feat4 V c (ix2 n q) := by
  obtain ⟨-, -, e2, e3, -⟩ := idx_facts4 t
  show (V c main_v4 : S12288x40.Idx → EReal) (((cfg4.win 1).blk t).view.emb (ix2 j q)) = (V c main_v4 : S12288x40.Idx → EReal) _
  refine congrArg _ (funext fun a => Fin.ext ?_)
  match a with
  | ⟨0, _⟩ => show win4_1.index t (0 : Fin 2) * 2048 + 1 * j.val = n.val; omega
  | ⟨1, _⟩ => show win4_1.index t (1 : Fin 2) * 40 + 1 * q.val = q.val; omega

theorem dkblk4_apply (c : Dev nD) (t : Fin cfg4.N) (j : Fin 2048) (n : Fin 12288)
    (hn : n.val = 2048 * (t.val % 6) + j.val) :
    dkblk4 V c t (ix2 j (0 : Fin 1)) = dinv4 V c (ix2 n (0 : Fin 1)) := by
  obtain ⟨-, -, -, -, e4, e5, -⟩ := idx_facts4 t
  show (V c main_v0_1 : S12288x1.Idx → EReal) (((cfg4.win 2).blk t).view.emb (ix2 j (0 : Fin 1))) = (V c main_v0_1 : S12288x1.Idx → EReal) _
  refine congrArg _ (funext fun a => Fin.ext ?_)
  match a with
  | ⟨0, _⟩ => show win4_2.index t (0 : Fin 2) * 2048 + 1 * j.val = n.val; omega
  | ⟨1, _⟩ => show win4_2.index t (1 : Fin 2) * 1 + 1 * 0 = 0; omega

theorem miblk4_apply (c : Dev nD) (t : Fin cfg4.N) (p : Fin 2048) (q : Fin 40) (r : Fin 12288)
    (hr : r.val = 2048 * (t.val / 6) + p.val) :
    miblk4 V c t (ix2 p q) = feat4 V c (ix2 r q) := by
  obtain ⟨-, -, -, -, -, -, e6, e7, -⟩ := idx_facts4 t
  show (V c main_v4 : S12288x40.Idx → EReal) (((cfg4.win 3).blk t).view.emb (ix2 p q)) = (V c main_v4 : S12288x40.Idx → EReal) _
  refine congrArg _ (funext fun a => Fin.ext ?_)
  match a with
  | ⟨0, _⟩ => show win4_3.index t (0 : Fin 2) * 2048 + 1 * p.val = r.val; omega
  | ⟨1, _⟩ => show win4_3.index t (1 : Fin 2) * 40 + 1 * q.val = q.val; omega

theorem diblk4_apply (c : Dev nD) (t : Fin cfg4.N) (p : Fin 2048) (r : Fin 12288)
    (hr : r.val = 2048 * (t.val / 6) + p.val) :
    diblk4 V c t (ix2 p (0 : Fin 1)) = dinv4 V c (ix2 r (0 : Fin 1)) := by
  obtain ⟨-, -, -, -, -, -, -, -, e8, e9, -⟩ := idx_facts4 t
  show (V c main_v0_1 : S12288x1.Idx → EReal) (((cfg4.win 4).blk t).view.emb (ix2 p (0 : Fin 1))) = (V c main_v0_1 : S12288x1.Idx → EReal) _
  refine congrArg _ (funext fun a => Fin.ext ?_)
  match a with
  | ⟨0, _⟩ => show win4_4.index t (0 : Fin 2) * 2048 + 1 * p.val = r.val; omega
  | ⟨1, _⟩ => show win4_4.index t (1 : Fin 2) * 1 + 1 * 0 = 0; omega

theorem bblk4_apply (c : Dev nD) (t : Fin cfg4.N) (q : Fin 40) :
    bblk4 V c t (ix2 (0 : Fin 1) q) = bias4 V c (ix2 (0 : Fin 1) q) := by
  obtain ⟨-, -, -, -, -, -, -, -, -, -, e10, e11, -⟩ := idx_facts4 t
  show (V c main_v5 : S1x40.Idx → EReal) (((cfg4.win 5).blk t).view.emb (ix2 (0 : Fin 1) q)) = (V c main_v5 : S1x40.Idx → EReal) _
  refine congrArg _ (funext fun a => Fin.ext ?_)
  match a with
  | ⟨0, _⟩ => show win4_5.index t (0 : Fin 2) * 1 + 1 * 0 = 0; omega
  | ⟨1, _⟩ => show win4_5.index t (1 : Fin 2) * 40 + 1 * q.val = q.val; omega

def tile4 (a : S12288x12288.Idx → EReal) (M : S12288x40.Idx → EReal) (d : S12288x1.Idx → EReal) (r : Fin 12288) (q : Fin 40) (k : ℕ) : EReal :=
  if h : k < 6 then
    ∑ j : Fin 2048, a (ix2 r (⟨2048 * k + j.val, by omega⟩ : Fin 12288))
      * (M (ix2 (⟨2048 * k + j.val, by omega⟩ : Fin 12288) q) * d (ix2 (⟨2048 * k + j.val, by omega⟩ : Fin 12288) (0 : Fin 1)))
  else 0

theorem tile4_sum (a : S12288x12288.Idx → EReal) (M : S12288x40.Idx → EReal) (d : S12288x1.Idx → EReal) (r : Fin 12288) (q : Fin 40) :
    ∑ k ∈ Finset.range 6, tile4 a M d r q k = ∑ n : Fin 12288, a (ix2 r n) * (M (ix2 n q) * d (ix2 n (0 : Fin 1))) := by
  rw [Finset.sum_range]
  refine Eq.trans (Finset.sum_congr rfl fun k _ => ?_)
    (sum_6_2048_rows fun n : Fin 12288 => a (ix2 r n) * (M (ix2 n q) * d (ix2 n (0 : Fin 1))))
  unfold tile4
  exact dif_pos k.isLt

set_option maxHeartbeats 400000 in

theorem step4_apply (c : Dev nD) (t : Fin cfg4.N) (xs : Vec Ideal S2048x40 .f32) (p : Fin 2048) (q : Fin 40) (r : Fin 12288)
    (hr : r.val = 2048 * (t.val / 6) + p.val) :
    k4_pay2 (ablk4 V c t) (mkblk4 V c t) (dkblk4 V c t) xs (ix2 p q)
      = xs (ix2 p q) + tile4 (adj4 V c) (feat4 V c) (dinv4 V c) r q (t.val % 6) := by
  refine (k4_pay2_apply (ablk4 V c t) (mkblk4 V c t) (dkblk4 V c t) xs p q).trans ?_
  refine congrArg (xs (ix2 p q) + ·) ?_
  unfold tile4
  rw [dif_pos (Nat.mod_lt _ (by decide))]
  refine Finset.sum_congr rfl fun j _ => ?_
  exact congrArg₂ (· * ·) (ablk4_apply V c t p j r _ hr rfl)
    (congrArg₂ (· * ·) (mkblk4_apply V c t j q _ rfl) (dkblk4_apply V c t j _ rfl))

theorem scr4_A (c : Dev nD) (t : Fin cfg4.N) (h0 : t.val % 6 = 0) :
    (outsAt4 V c t.val t.isLt).2 = k4_pay2 (ablk4 V c t) (mkblk4 V c t) (dkblk4 V c t) (k4_pay1 (F := Ideal)) := by
  rw [outsAt4_A V c t h0]
  dsimp only
  exact sout4_A_0_eq (F := Ideal) c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseA4 t h0).1 (caseA4 t h0).2 (iblk4 V c 0 t) (iblk4 V c 1 t) (iblk4 V c 2 t)

theorem scr4_B (c : Dev nD) (t : Fin cfg4.N) (h0 : ¬t.val % 6 = 0) (h1 : ¬t.val % 6 = 5) :
    (outsAt4 V c t.val t.isLt).2 = k4_pay2 (ablk4 V c t) (mkblk4 V c t) (dkblk4 V c t) (outsAt4 V c (t.val - 1) (Nat.lt_of_le_of_lt (Nat.sub_le _ _) t.isLt)).2 := by
  rw [outsAt4_B V c t h0 h1]
  dsimp only
  exact sout4_B_0_eq (F := Ideal) c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseB4 t h0 h1).1 (caseB4 t h0 h1).2 (iblk4 V c 0 t) (iblk4 V c 1 t) (iblk4 V c 2 t) (outsAt4 V c (t.val - 1) (Nat.lt_of_le_of_lt (Nat.sub_le _ _) t.isLt)).2

theorem scr4_C (c : Dev nD) (t : Fin cfg4.N) (h1 : t.val % 6 = 5) :
    (outsAt4 V c t.val t.isLt).2 = k4_pay2 (ablk4 V c t) (mkblk4 V c t) (dkblk4 V c t) (outsAt4 V c (t.val - 1) (Nat.lt_of_le_of_lt (Nat.sub_le _ _) t.isLt)).2 := by
  rw [outsAt4_C V c t h1]
  dsimp only
  exact sout4_C_0_eq (F := Ideal) c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseC4 t h1).1 (caseC4 t h1).2 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2

theorem out4_C (c : Dev nD) (t : Fin cfg4.N) (h1 : t.val % 6 = 5) :
    (outsAt4 V c t.val t.isLt).1
      = k4_pay3 (diblk4 V c t) (miblk4 V c t) (k4_pay2 (ablk4 V c t) (mkblk4 V c t) (dkblk4 V c t) (outsAt4 V c (t.val - 1) (Nat.lt_of_le_of_lt (Nat.sub_le _ _) t.isLt)).2) (bblk4 V c t) := by
  rw [outsAt4_C V c t h1]
  dsimp only
  exact out4_C_6_eq (F := Ideal) c (grid4.coords t) (stg4_0 t) (hstg4_0 t) (stg4_1 t) (hstg4_1 t) (stg4_2 t) (hstg4_2 t) (stg4_3 t) (hstg4_3 t) (stg4_4 t) (hstg4_4 t) (stg4_5 t) (hstg4_5 t) (stg4_6 t) (hstg4_6 t) scr4 (Memref.isWhole_whole _) (caseC4 t h1).1 (caseC4 t h1).2 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2

set_option maxHeartbeats 400000 in

theorem scratch4_eq (c : Dev nD) : ∀ (n : ℕ) (h : n < cfg4.N) (p : Fin 2048) (q : Fin 40) (r : Fin 12288),
    r.val = 2048 * (n / 6) + p.val →
    (outsAt4 V c n h).2 (ix2 p q) = ∑ k ∈ Finset.range (n % 6 + 1), tile4 (adj4 V c) (feat4 V c) (dinv4 V c) r q k := by
  intro n
  induction n with
  | zero =>
    intro h p q r hr
    refine (congrFun (scr4_A V c ⟨0, h⟩ rfl) (ix2 p q)).trans ?_
    refine (step4_apply V c ⟨0, h⟩ (k4_pay1 (F := Ideal)) p q r hr).trans ?_
    rw [k4_pay1_apply, zero_add]
    exact (Finset.sum_range_one _).symm
  | succ m ih =>
    intro h p q r hr
    by_cases h0 : (m + 1) % 6 = 0
    · refine (congrFun (scr4_A V c ⟨m + 1, h⟩ h0) (ix2 p q)).trans ?_
      refine (step4_apply V c ⟨m + 1, h⟩ (k4_pay1 (F := Ideal)) p q r hr).trans ?_
      rw [k4_pay1_apply, zero_add]
      show tile4 (adj4 V c) (feat4 V c) (dinv4 V c) r q ((m + 1) % 6) = _
      rw [h0]
      exact (Finset.sum_range_one _).symm
    · have hm : (m + 1) % 6 = m % 6 + 1 := by omega
      have hd : (m + 1) / 6 = m / 6 := by omega
      have e : (outsAt4 V c (m + 1) h).2
          = k4_pay2 (ablk4 V c ⟨m + 1, h⟩) (mkblk4 V c ⟨m + 1, h⟩) (dkblk4 V c ⟨m + 1, h⟩) (outsAt4 V c m (Nat.lt_of_succ_lt h)).2 := by
        by_cases h1 : (m + 1) % 6 = 5
        · exact scr4_C V c ⟨m + 1, h⟩ h1
        · exact scr4_B V c ⟨m + 1, h⟩ h0 h1
      refine (congrFun e (ix2 p q)).trans ?_
      refine (step4_apply V c ⟨m + 1, h⟩ (outsAt4 V c m (Nat.lt_of_succ_lt h)).2 p q r hr).trans ?_
      rw [ih (Nat.lt_of_succ_lt h) p q r (by rw [hr, hd])]
      show _ + tile4 (adj4 V c) (feat4 V c) (dinv4 V c) r q ((m + 1) % 6) = _
      rw [hm]
      exact (Finset.sum_range_succ _ _).symm

theorem acc4_last (c : Dev nD) (t : Fin cfg4.N) (h1 : t.val % 6 = 5) (p : Fin 2048) (q : Fin 40) (r : Fin 12288)
    (hr : r.val = 2048 * (t.val / 6) + p.val) :
    k4_pay2 (ablk4 V c t) (mkblk4 V c t) (dkblk4 V c t) (outsAt4 V c (t.val - 1) (Nat.lt_of_le_of_lt (Nat.sub_le _ _) t.isLt)).2 (ix2 p q)
      = ∑ n : Fin 12288, adj4 V c (ix2 r n) * (feat4 V c (ix2 n q) * dinv4 V c (ix2 n (0 : Fin 1))) := by
  refine (congrFun (scr4_C V c t h1) (ix2 p q)).symm.trans ?_
  refine (scratch4_eq V c t.val t.isLt p q r hr).trans ?_
  rw [h1]
  exact tile4_sum (adj4 V c) (feat4 V c) (dinv4 V c) r q

abbrev agg4 (a : S12288x12288.Idx → EReal) (M : S12288x40.Idx → EReal) (d : S12288x1.Idx → EReal) (b : S1x40.Idx → EReal) :
    S12288x40.Idx → EReal :=
  fun y : S12288x40.Idx => Cert.Spec.lsm (fun q : Fin 40 =>
      d (ix2 (y 0) 0) * (∑ n : Fin 12288, a (ix2 (y 0) n) * (M (ix2 n q) * d (ix2 n 0)))
      + (d (ix2 (y 0) 0) * d (ix2 (y 0) 0)) * M (ix2 (y 0) q) + b (ix2 0 q)) (y 1)

set_option maxHeartbeats 400000 in

theorem epi4_at (c : Dev nD) (t : Fin cfg4.N) (h1 : t.val % 6 = 5) (y : S2048x40.Idx) (i : S12288x40.Idx)
    (hi0 : (i 0).val = 2048 * (t.val / 6) + (y 0).val) (hi1 : (i 1).val = (y 1).val) :
    k4_pay3 (diblk4 V c t) (miblk4 V c t) (k4_pay2 (ablk4 V c t) (mkblk4 V c t) (dkblk4 V c t) (outsAt4 V c (t.val - 1) (Nat.lt_of_le_of_lt (Nat.sub_le _ _) t.isLt)).2) (bblk4 V c t) y
      = agg4 (adj4 V c) (feat4 V c) (dinv4 V c) (bias4 V c) i := by
  obtain ⟨p, q, rfl⟩ : ∃ (p : Fin 2048) (q : Fin 40), y = ix2 p q := ⟨y 0, y 1, eq_ix2 y⟩
  obtain ⟨r, q', rfl⟩ : ∃ (r : Fin 12288) (q' : Fin 40), i = ix2 r q' := ⟨i 0, i 1, eq_ix2 i⟩
  obtain rfl : q' = q := Fin.ext hi1
  refine (k4_pay3_apply _ _ _ _ p q').trans ?_
  refine congrArg (fun v => Cert.Spec.lsm v q') (funext fun col => ?_)
  have hd := diblk4_apply V c t p r hi0
  refine congrArg₂ (· + ·) (congrArg₂ (· + ·) (congrArg₂ (· * ·) hd (acc4_last V c t h1 p col r hi0))
    (congrArg₂ (· * ·) (congrArg₂ (· * ·) hd hd) (miblk4_apply V c t p col r hi0))) (bblk4_apply V c t col)

set_option maxHeartbeats 400000 in

theorem flushed4_eq (c : Dev nD) (t : Fin cfg4.N) (hf : (cfg4.win 6).flush t = true) :
    (dat4 (F := Ideal) V c).flushed 6 t
      = ((cfg4.win 6).blk t).view.read (Elt Ideal) (agg4 (V c main_v0_0) (V c main_v4) (V c main_v0_1) (V c main_v5)) := by
  have h5 : t.val % 6 = 5 := (flush4_6 t).mp hf
  show (cfg4.win 6).cut (grid4.coords t) ((dat4 V c).after 6 t) = _
  rw [after4_6, out4_C V c t h5]
  obtain ⟨-, -, -, -, -, -, -, -, -, -, -, -, e12, e13⟩ := idx_facts4 t
  funext y
  show k4_pay3 (diblk4 V c t) (miblk4 V c t) (k4_pay2 (ablk4 V c t) (mkblk4 V c t) (dkblk4 V c t) (outsAt4 V c (t.val - 1) (Nat.lt_of_le_of_lt (Nat.sub_le _ _) t.isLt)).2) (bblk4 V c t) _
    = agg4 (adj4 V c) (feat4 V c) (dinv4 V c) (bias4 V c) (((cfg4.win 6).blk t).view.emb y)
  refine epi4_at V c t h5 _ _ ?_ ?_
  · show win4_6.index t (0 : Fin 2) * 2048 + 1 * (y 0).val = 2048 * (t.val / 6) + (y 0).val; omega
  · show win4_6.index t (1 : Fin 2) * 40 + 1 * (y 1).val = (y 1).val; omega

theorem mem_blk4 (t : Fin cfg4.N) (i : S12288x40.Idx) :
    i ∈ ((cfg4.win 6).blk t).view.set ↔ ∀ a : Fin 2, win4_6.index t a * S2048x40.size a ≤ (i a).val ∧ (i a).val < win4_6.index t a * S2048x40.size a + S2048x40.size a := by
  show i ∈ ((View.whole main_v6).slice (win4_6.rect t)).set ↔ _
  rw [View.set_slice_whole, Rect.mem_set_unit]
  exact Iff.rfl

theorem cover4 (i : S12288x40.Idx) : ∃ t : Fin cfg4.N, (cfg4.win 6).flush t = true ∧ i ∈ ((cfg4.win 6).blk t).view.set := by
  have hi0 : (i 0).val < 12288 := (i 0).isLt
  have hi1 : (i 1).val < 40 := (i 1).isLt
  have hN : cfg4.N = 36 := N_4
  have ht : 6 * ((i 0).val / 2048) + 5 < cfg4.N := by rw [hN]; omega
  refine ⟨⟨6 * ((i 0).val / 2048) + 5, ht⟩, (flush4_6 _).mpr (by show (6 * ((i 0).val / 2048) + 5) % 6 = 5; omega), ?_⟩
  rw [mem_blk4]
  obtain ⟨-, -, -, -, -, -, -, -, -, -, -, -, e12, e13⟩ := idx_facts4 ⟨6 * ((i 0).val / 2048) + 5, ht⟩
  have hq : (6 * ((i 0).val / 2048) + 5) / 6 = (i 0).val / 2048 := by omega
  intro a
  match a with
  | ⟨0, _⟩ =>
    show win4_6.index _ (0 : Fin 2) * 2048 ≤ (i 0).val ∧ (i 0).val < win4_6.index _ (0 : Fin 2) * 2048 + 2048
    rw [e12]
    show (6 * ((i 0).val / 2048) + 5) / 6 * 2048 ≤ (i 0).val ∧ (i 0).val < (6 * ((i 0).val / 2048) + 5) / 6 * 2048 + 2048
    rw [hq]; omega
  | ⟨1, _⟩ =>
    show win4_6.index _ (1 : Fin 2) * 40 ≤ (i 1).val ∧ (i 1).val < win4_6.index _ (1 : Fin 2) * 40 + 40
    rw [e13]; omega

theorem arrAt4 (c : Dev nD) : (dat4 (F := Ideal) V c).arrAt 6 cfg4.N
    = agg4 (V c main_v0_0) (V c main_v4) (V c main_v0_1) (V c main_v5) :=
  (dat4 (F := Ideal) V c).arrAt_eq_of_cover 6 (agg4 (V c main_v0_0) (V c main_v4) (V c main_v0_1) (V c main_v5))
    (fun t hf => flushed4_eq V c t hf) cover4

end Cert.KernelIdeal.HandVal

end
-- ==== Proof.Val.Chain.lean ====
import proofs.«111342_j55946243997874_2_alg».proof.Proof.KI.RunVals
import proofs.«111342_j55946243997874_2_alg».proof.Proof.Val.Deg0
import proofs.«111342_j55946243997874_2_alg».proof.Proof.Val.Mat1
import proofs.«111342_j55946243997874_2_alg».proof.Proof.Val.Agg2
import proofs.«111342_j55946243997874_2_alg».proof.Proof.Val.Mat3
import proofs.«111342_j55946243997874_2_alg».proof.Proof.Val.Agg4
import proofs.«111342_j55946243997874_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem

abbrev dinvCol (A : S12288x12288.Idx → EReal) : S12288x1.Idx → EReal :=
  fun y => Cert.Spec.dinv A (y 0)

theorem agg2_congr {A A' : S12288x12288.Idx → EReal} {M M' : S12288x16.Idx → EReal} {d d' : S12288x1.Idx → EReal}
    {b b' : S1x16.Idx → EReal} (hA : A = A') (hM : M = M') (hd : d = d') (hb : b = b') :
    agg2 A M d b = agg2 A' M' d' b' := by subst hA hM hd hb; rfl

theorem agg4_congr {A A' : S12288x12288.Idx → EReal} {M M' : S12288x40.Idx → EReal} {d d' : S12288x1.Idx → EReal}
    {b b' : S1x40.Idx → EReal} (hA : A = A') (hM : M = M') (hd : d = d') (hb : b = b') :
    agg4 A M d b = agg4 A' M' d' b' := by subst hA hM hd hb; rfl

theorem prod1_xw (X : Cert.Spec.SX.Idx → EReal) (W1 : Cert.Spec.SW1.Idx → EReal) :
    prod1 X W1 = fun y : S12288x16.Idx => Cert.Spec.xw X W1 (y 0) (y 1) := rfl

theorem agg2_hid (X : Cert.Spec.SX.Idx → EReal) (A : Cert.Spec.SA.Idx → EReal) (W1 : Cert.Spec.SW1.Idx → EReal)
    (B1 : Cert.Spec.SB1.Idx → EReal) :
    agg2 A (fun y : S12288x16.Idx => Cert.Spec.xw X W1 (y 0) (y 1)) (dinvCol A) (fun y : S1x16.Idx => B1 (ix1 (y 1)))
      = fun y : S12288x16.Idx => Cert.Spec.hid X A W1 B1 (y 0) (y 1) := rfl

theorem prod3_hw (X : Cert.Spec.SX.Idx → EReal) (A : Cert.Spec.SA.Idx → EReal) (W1 : Cert.Spec.SW1.Idx → EReal)
    (B1 : Cert.Spec.SB1.Idx → EReal) (W2 : Cert.Spec.SW2.Idx → EReal) :
    prod3 (fun y : S12288x16.Idx => Cert.Spec.hid X A W1 B1 (y 0) (y 1)) W2
      = fun y : S12288x40.Idx => Cert.Spec.hw X A W1 B1 W2 (y 0) (y 1) := rfl

theorem agg4_out (X : Cert.Spec.SX.Idx → EReal) (A : Cert.Spec.SA.Idx → EReal) (W1 : Cert.Spec.SW1.Idx → EReal)
    (B1 : Cert.Spec.SB1.Idx → EReal) (W2 : Cert.Spec.SW2.Idx → EReal) (B2 : Cert.Spec.SB2.Idx → EReal) :
    agg4 A (fun y : S12288x40.Idx => Cert.Spec.hw X A W1 B1 W2 (y 0) (y 1)) (dinvCol A) (fun y : S1x40.Idx => B2 (ix1 (y 1)))
      = Cert.Spec.out X A W1 B1 W2 B2 := by
  funext y
  unfold Cert.Spec.out Cert.Spec.logits Cert.Spec.agg
  rfl

variable (m : (ℓ : Loc nD τ sig) → Buf (Elt Ideal) ℓ)

abbrev argX (c : Dev nD) : Cert.Spec.SX.Idx → EReal := m ((c : Thread nD τ).loc main_arg0)

abbrev argA (c : Dev nD) : Cert.Spec.SA.Idx → EReal := m ((c : Thread nD τ).loc main_arg1)

abbrev argW1 (c : Dev nD) : Cert.Spec.SW1.Idx → EReal := m ((c : Thread nD τ).loc main_arg2)
abbrev argB1 (c : Dev nD) : Cert.Spec.SB1.Idx → EReal := m ((c : Thread nD τ).loc main_arg3)

abbrev argW2 (c : Dev nD) : Cert.Spec.SW2.Idx → EReal := m ((c : Thread nD τ).loc main_arg4)
abbrev argB2 (c : Dev nD) : Cert.Spec.SB2.Idx → EReal := m ((c : Thread nD τ).loc main_arg5)

theorem V1_arg0 (c : Dev nD) : V1 m c main_arg0 = argX m c := W1_of m c main_arg0 (by decide)
theorem V1_arg2 (c : Dev nD) : V1 m c main_arg2 = argW1 m c := W1_of m c main_arg2 (by decide)
theorem V2_arg3 (c : Dev nD) : W2 m c (Proc.devRef .tc main_arg3) = argB1 m c :=
  (W2_of m c main_arg3 (by decide)).trans (W1_of m c main_arg3 (by decide))
theorem V4_arg4 (c : Dev nD) : V4 m c main_arg4 = argW2 m c :=
  (W4_of m c main_arg4 (by decide)).trans <| (W3_of m c main_arg4 (by decide)).trans <|
    (W2_of m c main_arg4 (by decide)).trans (W1_of m c main_arg4 (by decide))
theorem V5_arg5 (c : Dev nD) : W5 m c (Proc.devRef .tc main_arg5) = argB2 m c :=
  (W5_of m c main_arg5 (by decide)).trans <| (W4_of m c main_arg5 (by decide)).trans <| (W3_of m c main_arg5 (by decide)).trans <|
    (W2_of m c main_arg5 (by decide)).trans (W1_of m c main_arg5 (by decide))

theorem V3_v2 (c : Dev nD) : V3 m c main_v2 = fun y : S1x16.Idx => argB1 m c (ix1 (y 1)) := by
  funext y
  obtain ⟨u, q, rfl⟩ : ∃ (u : Fin 1) (q : Fin 16), y = ix2 u q := ⟨y 0, y 1, eq_ix2 y⟩
  refine (congrFun (W3_main_v2 m c) (ix2 u q)).trans ?_
  refine (shapeCast_a_1a_apply _ _ u q).trans ?_
  exact congrFun (V2_arg3 m c) (ix1 q)

theorem V6_v5 (c : Dev nD) : V6 m c main_v5 = fun y : S1x40.Idx => argB2 m c (ix1 (y 1)) := by
  funext y
  obtain ⟨u, q, rfl⟩ : ∃ (u : Fin 1) (q : Fin 40), y = ix2 u q := ⟨y 0, y 1, eq_ix2 y⟩
  refine (congrFun (W6_main_v5 m c) (ix2 u q)).trans ?_
  refine (shapeCast_a_1a_apply _ _ u q).trans ?_
  exact congrFun (V5_arg5 m c) (ix1 q)

theorem V1_v0_0 (c : Dev nD) : V1 m c main_v0_0 = argA m c := (W1_main_v0_0 m c).trans (arrAt0_1 (V0 m) c)

theorem V1_v0_1 (c : Dev nD) : V1 m c main_v0_1 = dinvCol (argA m c) := (W1_main_v0_1 m c).trans (arrAt0_2 (V0 m) c)

theorem V3_v0_0 (c : Dev nD) : V3 m c main_v0_0 = argA m c :=
  (W3_of m c main_v0_0 (by decide)).trans <| (W2_of m c main_v0_0 (by decide)).trans (V1_v0_0 m c)

theorem V3_v0_1 (c : Dev nD) : V3 m c main_v0_1 = dinvCol (argA m c) :=
  (W3_of m c main_v0_1 (by decide)).trans <| (W2_of m c main_v0_1 (by decide)).trans (V1_v0_1 m c)

theorem V6_v0_0 (c : Dev nD) : V6 m c main_v0_0 = argA m c :=
  (W6_of m c main_v0_0 (by decide)).trans <| (W5_of m c main_v0_0 (by decide)).trans <|
    (W4_of m c main_v0_0 (by decide)).trans (V3_v0_0 m c)

theorem V6_v0_1 (c : Dev nD) : V6 m c main_v0_1 = dinvCol (argA m c) :=
  (W6_of m c main_v0_1 (by decide)).trans <| (W5_of m c main_v0_1 (by decide)).trans <|
    (W4_of m c main_v0_1 (by decide)).trans (V3_v0_1 m c)

theorem V2_v1 (c : Dev nD) :
    V2 m c main_v1 = fun y : S12288x16.Idx => Cert.Spec.xw (argX m c) (argW1 m c) (y 0) (y 1) :=
  (W2_main_v1 m c).trans <| (arrAt1 (V1 m) c).trans <| (congrArg₂ prod1 (V1_arg0 m c) (V1_arg2 m c)).trans (prod1_xw _ _)

theorem V3_v1 (c : Dev nD) :
    V3 m c main_v1 = fun y : S12288x16.Idx => Cert.Spec.xw (argX m c) (argW1 m c) (y 0) (y 1) :=
  (W3_of m c main_v1 (by decide)).trans (V2_v1 m c)

theorem V4_v3 (c : Dev nD) :
    V4 m c main_v3 = fun y : S12288x16.Idx => Cert.Spec.hid (argX m c) (argA m c) (argW1 m c) (argB1 m c) (y 0) (y 1) :=
  (W4_main_v3 m c).trans <| (arrAt2 (V3 m) c).trans <|
    (agg2_congr (V3_v0_0 m c) (V3_v1 m c) (V3_v0_1 m c) (V3_v2 m c)).trans (agg2_hid _ _ _ _)

theorem V5_v4 (c : Dev nD) :
    V5 m c main_v4 = fun y : S12288x40.Idx =>
      Cert.Spec.hw (argX m c) (argA m c) (argW1 m c) (argB1 m c) (argW2 m c) (y 0) (y 1) :=
  (W5_main_v4 m c).trans <| (arrAt3 (V4 m) c).trans <|
    (congrArg₂ prod3 (V4_v3 m c) (V4_arg4 m c)).trans (prod3_hw _ _ _ _ _)

theorem V6_v4 (c : Dev nD) :
    V6 m c main_v4 = fun y : S12288x40.Idx =>
      Cert.Spec.hw (argX m c) (argA m c) (argW1 m c) (argB1 m c) (argW2 m c) (y 0) (y 1) :=
  (W6_of m c main_v4 (by decide)).trans (V5_v4 m c)

theorem kernel_out_arg (c : Dev nD) :
    W7 m c (Proc.devRef .tc main_v6)
      = Cert.Spec.out (argX m c) (argA m c) (argW1 m c) (argB1 m c) (argW2 m c) (argB2 m c) :=
  (W7_main_v6 m c).trans <| (arrAt4 (V6 m) c).trans <|
    (agg4_congr (V6_v0_0 m c) (V6_v4 m c) (V6_v0_1 m c) (V6_v5 m c)).trans (agg4_out _ _ _ _ _ _)

/-- After the seven items the result array holds the network of the launch arrays in the kernel's arrangement. -/
theorem kernel_out (c : Dev nD) :
    W7 m c (Proc.devRef .tc main_v6)
      = Cert.Spec.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  kernel_out_arg m c

end Cert.KernelIdeal.HandVal

end
-- ==== Proof.RefBridge.lean ====
import proofs.«111342_j55946243997874_2_alg».proof.Defs
import proofs.«111342_j55946243997874_2_alg».proof.Proof.RefRun
import proofs.«111342_j55946243997874_2_alg».proof.Proof.RefRead
import proofs.«111342_j55946243997874_2_alg».proof.Proof.Spec
import Idealize.ShloMosaic.Lib.IdealHost
import Idealize.ShloMosaic.Lib.StableHlo.Predicate

noncomputable section

namespace Cert.RefBridge

open Cert.ReferenceIdeal Cert.ReferenceIdeal.Gen Cert.ReferenceIdeal.Read
open Idealize.ShloMosaic Idealize.ShloMosaic.TcCoe Idealize.SL.Sem Idealize.ShloMosaic.ValueIdx
open Cert.Spec (eye degR dinvR norm aggR xw hidR hwR logitsR rowmax lsmR outR)

theorem ofBits_neg_inf_f32 : Ideal.ofBits .f32 0xFF800000#32 = ⊥ := by simp [Ideal.ofBits, Ideal.ieee]

theorem eye_read (p n : Fin 12288) :
    FloatOps.uitofp (F := Ideal) .f32 (IntOp.cmpi .eq (IntOp.addi (BitVec.ofNat 32 p.val) 0#32) (BitVec.ofNat 32 n.val)) = eye p n := by
  unfold Cert.Spec.eye
  by_cases h : p = n
  · subst h
    rw [if_pos rfl, StableHlo.Predicate.cmpi_eq_iff.2 (show IntOp.addi (BitVec.ofNat 32 p.val) 0#32 = BitVec.ofNat 32 p.val from BitVec.add_zero _)]
    show (((1#1 : BitVec 1).toNat : ℝ) : EReal) = 1
    simp
  · rw [if_neg h]
    have hne : ¬ IntOp.cmpi .eq (IntOp.addi (BitVec.ofNat 32 p.val) 0#32) (BitVec.ofNat 32 n.val) = 1#1 := fun e => by
      have e' := StableHlo.Predicate.cmpi_eq_iff.1 e
      rw [show IntOp.addi (BitVec.ofNat 32 p.val) 0#32 = BitVec.ofNat 32 p.val from BitVec.add_zero _] at e'
      have e2 := congrArg BitVec.toNat e'
      simp only [BitVec.toNat_ofNat] at e2
      have hp := p.isLt; have hn := n.isLt
      exact h (Fin.ext (by omega))
    rw [eq_zero_of_ne_one hne]
    show (((0#1 : BitVec 1).toNat : ℝ) : EReal) = 0
    simp

theorem rowmax_read (y : FVec Ideal S12288x40 .f32) (hr : S12288x40.ReducesTo [1] S12288) (hu : 0 < S_.numel) (p : Fin 12288) :
    Host.reduce FloatOps.maximumf y (constant (F := Ideal) S_ .f32 0xFF800000#32) hr hu (ix1 p) = rowmax (fun c => y (ix2 p c)) := by
  rw [Host.reduce_eq_fold_single FloatOps.maximumf y _ hr (by decide) hu (ix1 p), constant_apply, ofBits_neg_inf_f32]
  unfold Cert.Spec.rowmax
  show (Finset.univ : Finset (Fin 40)).fold max ⊥ _ = _
  refine Finset.fold_congr fun c _ => congrArg y ?_
  funext a; refine Fin.ext ?_
  match a with
  | ⟨0, _⟩ => rfl
  | ⟨1, _⟩ => rfl

variable (x0 : (⟨S12288x512, .f32⟩ : BufTy).Contents (Elt Ideal)) (x1 : (⟨S12288x12288, .f32⟩ : BufTy).Contents (Elt Ideal))
  (x2 : (⟨S512x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

theorem v5_read (p n : Fin 12288) : val_main_v5 (F := Ideal) (ix2 p n) = eye p n := by
  rw [val_main_v5_apply, val_main_v4_apply, val_main_v3_apply, val_main_v0_apply, val_main_v2_apply, val_main_c_apply, val_main_v1_apply]
  exact eye_read p n

theorem v6_read (p n : Fin 12288) : val_main_v6 (F := Ideal) x1 (ix2 p n) = x1 (ix2 p n) + eye p n := by
  rw [val_main_v6_apply, v5_read]
  rfl

theorem v7_read (p : Fin 12288) : val_main_v7 (F := Ideal) x1 (ix1 p) = degR x1 p := by
  rw [val_main_v7_apply, val_main_cst_apply, Ideal.ofBits_def, Ideal.ofBits_zero_f32]
  unfold Cert.Spec.degR
  refine congrArg (0 + ·) (Finset.sum_congr rfl fun k _ => ?_)
  rw [show idx_main_v7 (ix1 p) k = ix2 p k from funext fun a => Fin.ext (by match a with | ⟨0, _⟩ => rfl | ⟨1, _⟩ => rfl), v6_read]

theorem v8_read (p : Fin 12288) : val_main_v8 (F := Ideal) x1 (ix1 p) = dinvR x1 p := by
  rw [val_main_v8_apply, v7_read]
  rfl

theorem v14_read (p n : Fin 12288) : val_main_v14 (F := Ideal) x1 (ix2 p n) = norm x1 p n := by
  rw [val_main_v14_apply, val_main_v11_apply, val_main_v10_apply, val_main_v9_apply, val_main_v13_apply, val_main_v12_apply, v6_read,
    show idx_main_v9 (idx_main_v10 (ix2 p n)) = ix1 p from funext fun a => Fin.ext (by match a with | ⟨0, _⟩ => rfl),
    show idx_main_v12 (idx_main_v13 (ix2 p n)) = ix1 n from funext fun a => Fin.ext (by match a with | ⟨0, _⟩ => rfl),
    v8_read, v8_read]
  rfl

theorem v15_read (p : Fin 12288) (c : Fin 16) : val_main_v15 (F := Ideal) x0 x2 (ix2 p c) = xw x0 x2 p c := by
  rw [val_main_v15_apply]
  unfold Cert.Spec.xw
  refine Finset.sum_congr rfl fun k _ => ?_
  rw [show lidx_main_v15 (ix2 p c) k = ix2 p k from funext fun a => Fin.ext (by match a with | ⟨0, _⟩ => rfl | ⟨1, _⟩ => rfl),
    show ridx_main_v15 (ix2 p c) k = ix2 k c from funext fun a => Fin.ext (by match a with | ⟨0, _⟩ => rfl | ⟨1, _⟩ => rfl)]

theorem v19_read (p : Fin 12288) (c : Fin 16) :
    val_main_v19 (F := Ideal) x0 x1 x2 x3 (ix2 p c) = aggR x1 (xw x0 x2) (fun c => x3 (ix1 c)) p c := by
  rw [val_main_v19_apply, val_main_v16_apply, val_main_v18_apply, val_main_v17_apply, Ideal.addf_def]
  unfold Cert.Spec.aggR
  refine congrArg₂ (· + ·) (Finset.sum_congr rfl fun k _ => ?_) (congrArg x3 ?_)
  · rw [show lidx_main_v16 (ix2 p c) k = ix2 p k from funext fun a => Fin.ext (by match a with | ⟨0, _⟩ => rfl | ⟨1, _⟩ => rfl),
      show ridx_main_v16 (ix2 p c) k = ix2 k c from funext fun a => Fin.ext (by match a with | ⟨0, _⟩ => rfl | ⟨1, _⟩ => rfl),
      v14_read, v15_read]
  · exact funext fun a => Fin.ext (by match a with | ⟨0, _⟩ => rfl)

theorem v20_read (p : Fin 12288) (c : Fin 16) : val_main_v20 (F := Ideal) x0 x1 x2 x3 (ix2 p c) = hidR x0 x1 x2 x3 p c := by
  rw [val_main_v20_apply, val_main_call0_v0_apply, val_main_call0_cst_apply, v19_read, Ideal.ofBits_def, Ideal.ofBits_zero_f32]
  rfl

theorem v21_read (p : Fin 12288) (c : Fin 40) : val_main_v21 (F := Ideal) x0 x1 x2 x3 x4 (ix2 p c) = hwR x0 x1 x2 x3 x4 p c := by
  rw [val_main_v21_apply]
  unfold Cert.Spec.hwR
  refine Finset.sum_congr rfl fun k _ => ?_
  rw [show lidx_main_v21 (ix2 p c) k = ix2 p k from funext fun a => Fin.ext (by match a with | ⟨0, _⟩ => rfl | ⟨1, _⟩ => rfl),
    show ridx_main_v21 (ix2 p c) k = ix2 k c from funext fun a => Fin.ext (by match a with | ⟨0, _⟩ => rfl | ⟨1, _⟩ => rfl),
    v20_read]

theorem v25_read (p : Fin 12288) (c : Fin 40) :
    val_main_v25 (F := Ideal) x0 x1 x2 x3 x4 x5 (ix2 p c) = logitsR x0 x1 x2 x3 x4 x5 p c := by
  rw [val_main_v25_apply, val_main_v22_apply, val_main_v24_apply, val_main_v23_apply, Ideal.addf_def]
  unfold Cert.Spec.logitsR Cert.Spec.aggR
  refine congrArg₂ (· + ·) (Finset.sum_congr rfl fun k _ => ?_) (congrArg x5 ?_)
  · rw [show lidx_main_v22 (ix2 p c) k = ix2 p k from funext fun a => Fin.ext (by match a with | ⟨0, _⟩ => rfl | ⟨1, _⟩ => rfl),
      show ridx_main_v22 (ix2 p c) k = ix2 k c from funext fun a => Fin.ext (by match a with | ⟨0, _⟩ => rfl | ⟨1, _⟩ => rfl),
      v14_read, v21_read]
  · exact funext fun a => Fin.ext (by match a with | ⟨0, _⟩ => rfl)

theorem c1v0_read (p : Fin 12288) :
    val_main_call1_v0 (F := Ideal) x0 x1 x2 x3 x4 x5 (ix1 p) = rowmax (fun c => logitsR x0 x1 x2 x3 x4 x5 p c) :=
  (rowmax_read (val_main_v25 (F := Ideal) x0 x1 x2 x3 x4 x5) reducesTo_S12288x40_S12288_d1 h_S_ p).trans
    (congrArg rowmax (funext fun c => v25_read x0 x1 x2 x3 x4 x5 p c))

theorem c1v2_read (p : Fin 12288) :
    val_main_call1_v2 (F := Ideal) x0 x1 x2 x3 x4 x5 (ix1 p) = max ⊥ (rowmax (fun c => logitsR x0 x1 x2 x3 x4 x5 p c)) := by
  rw [val_main_call1_v2_apply, val_main_call1_v1_apply, val_main_call1_cst_0_apply, c1v0_read, Ideal.ofBits_def, ofBits_neg_inf_f32]
  rfl

theorem c1v5_read (p : Fin 12288) (c : Fin 40) :
    val_main_call1_v5 (F := Ideal) x0 x1 x2 x3 x4 x5 (ix2 p c)
      = logitsR x0 x1 x2 x3 x4 x5 p c - max ⊥ (rowmax (fun c => logitsR x0 x1 x2 x3 x4 x5 p c)) := by
  rw [val_main_call1_v5_apply, val_main_call1_v4_apply, val_main_call1_v3_apply, v25_read,
    show idx_main_call1_v3 (idx_main_call1_v4 (ix2 p c)) = ix1 p from funext fun a => Fin.ext (by match a with | ⟨0, _⟩ => rfl),
    c1v2_read]
  rfl

theorem c1v7_read (p : Fin 12288) :
    val_main_call1_v7 (F := Ideal) x0 x1 x2 x3 x4 x5 (ix1 p)
      = 0 + ∑ c' : Fin 40, Ideal.exp (logitsR x0 x1 x2 x3 x4 x5 p c' - max ⊥ (rowmax (fun c => logitsR x0 x1 x2 x3 x4 x5 p c))) := by
  rw [val_main_call1_v7_apply, val_main_call1_cst_1_apply, Ideal.ofBits_def, Ideal.ofBits_zero_f32]
  refine congrArg (0 + ·) (Finset.sum_congr rfl fun k _ => ?_)
  rw [show idx_main_call1_v7 (ix1 p) k = ix2 p k from funext fun a => Fin.ext (by match a with | ⟨0, _⟩ => rfl | ⟨1, _⟩ => rfl),
    val_main_call1_v6_apply, c1v5_read]
  rfl

theorem v26_read (p : Fin 12288) (c : Fin 40) :
    val_main_v26 (F := Ideal) x0 x1 x2 x3 x4 x5 (ix2 p c) = lsmR (fun c => logitsR x0 x1 x2 x3 x4 x5 p c) c := by
  rw [val_main_v26_apply, c1v5_read, val_main_call1_v10_apply, val_main_call1_v9_apply, val_main_call1_v8_apply,
    show idx_main_call1_v8 (idx_main_call1_v10 (ix2 p c)) = ix1 p from funext fun a => Fin.ext (by match a with | ⟨0, _⟩ => rfl),
    c1v7_read]
  rfl

/-- The reference's result, read one operation at a time, is the network in the reference's arrangement. -/
theorem ref_eq_outR : val_main_v26 (F := Ideal) x0 x1 x2 x3 x4 x5 = outR x0 x1 x2 x3 x4 x5 := by
  funext i
  obtain ⟨p, q, rfl⟩ : ∃ (p : Fin 12288) (q : Fin 40), i = ix2 p q := ⟨i 0, i 1, eq_ix2 i⟩
  exact v26_read x0 x1 x2 x3 x4 x5 p q

theorem run_outR (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v26)
          = outR (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run _ _ _).mono
    (fun _ h c => ⟨(h c).1.trans ((val_main_v26_eq m' c).trans (ref_eq_outR _ _ _ _ _ _)), (h c).2⟩)
    (Cert.ReferenceIdeal.Value.run (F := Ideal) m' ρ')

end Cert.RefBridge

end
-- ==== Proof.PreFacts.lean ====
import proofs.«111342_j55946243997874_2_alg».proof.Pre_finite_inputs
import proofs.«111342_j55946243997874_2_alg».proof.Proof.Spec
import Idealize.ShloMosaic.Lib.ReduceAll
import Idealize.ShloMosaic.Lib.IdealHost
import Idealize.ShloMosaic.Lib.ValueIdx
import Idealize.ShloMosaic.PureOps.Ideal.Laws

noncomputable section

namespace Cert.PreFacts

open Idealize.ShloMosaic Idealize.ShloMosaic.ValueIdx Cert.Pre_finite_inputs

instance : Subsingleton S_.Idx := ⟨fun a b => funext fun d => d.elim0⟩

theorem ofBits_inf_f32 : Ideal.ofBits .f32 0x7F800000#32 = ⊤ := by simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

theorem real_of_all {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (e : Host.reduce IntOp.andi (cmpf .olt (Host.absf x) (broadcastInDim s ![] hb (constant (F := Ideal) S_ .f32 0x7F800000#32)))
      init hr hu j = 1#1) (i : s.Idx) : ∃ r : ℝ, x i = (r : EReal) := by
  have h1 := Host.reduce_andi_all _ init hr hu j e i
  rw [cmpf_apply, broadcastInDim_scalar_apply, constant_apply, ofBits_inf_f32] at h1
  exact real_of_abs_lt_top (x i) h1

theorem pos_of_cmp_ogt (a : EReal) (h : Ideal.cmp .ogt a 0 = 1#1) : 0 < a := by
  by_cases hp : 0 < a
  · exact hp
  · simp [Ideal.cmp, hp] at h

theorem deg_pos_of_all (hb : S_.BroadcastsInDim S12288 (![] : Fin 0 → Fin S12288.rank))
    (hr : S12288x12288.ReducesTo [1] S12288) (hr' : S12288.ReducesTo [0] S_) (hu : 0 < S_.numel)
    (x1 : FVec Ideal S12288x12288 .f32) (init : IVec S_ 1) (j : S_.Idx)
    (e : Host.reduce IntOp.andi
      (cmpf .ogt
        (addf (Host.reduceAdd x1 (constant (F := Ideal) S_ .f32 0x00000000#32) hr hu)
          (broadcastInDim S12288 ![] hb (constant (F := Ideal) S_ .f32 0x3F800000#32)))
        (broadcastInDim S12288 ![] hb (constant (F := Ideal) S_ .f32 0x00000000#32)))
      init hr' hu j = 1#1) (i : Fin 12288) : 0 < Cert.Spec.deg x1 i := by
  have h1 := Host.reduce_andi_all _ init hr' hu j e (ix1 i)
  rw [cmpf_apply, addf_apply, broadcastInDim_scalar_apply, broadcastInDim_scalar_apply, constant_apply, constant_apply,
    Ideal.ofBits_one_f32, Ideal.ofBits_zero_f32, hostReduceAdd_apply, constant_apply, Ideal.ofBits_zero_f32,
    Ideal.hostReduceAdd_single hr (by decide), zero_add] at h1
  have h2 := pos_of_cmp_ogt _ h1
  unfold Cert.Spec.deg
  refine lt_of_lt_of_eq h2 (congrArg (· + 1) (Finset.sum_congr rfl fun n _ => congrArg x1 ?_))
  funext a; refine Fin.ext ?_
  match a with
  | ⟨0, _⟩ => rfl
  | ⟨1, _⟩ => rfl

variable [Cert.Pre_finite_inputs.Facts]

theorem of_pre (x0 : FVec Ideal S12288x512 .f32) (x1 : FVec Ideal S12288x12288 .f32) (x2 : FVec Ideal S512x16 .f32)
    (x3 : FVec Ideal S16 .f32) (x4 : FVec Ideal S16x40 .f32) (x5 : FVec Ideal S40 .f32)
    (h : Cert.Pre_finite_inputs.fn (F := Ideal) x0 x1 x2 x3 x4 x5 = (fun _ => 1#1)) :
    (∀ j, ∃ r : ℝ, x0 j = (r : EReal)) ∧ (∀ j, ∃ r : ℝ, x1 j = (r : EReal)) ∧ (∀ j, ∃ r : ℝ, x2 j = (r : EReal))
      ∧ (∀ j, ∃ r : ℝ, x3 j = (r : EReal)) ∧ (∀ j, ∃ r : ℝ, x4 j = (r : EReal)) ∧ (∀ j, ∃ r : ℝ, x5 j = (r : EReal))
      ∧ ∀ i : Fin 12288, 0 < Cert.Spec.deg x1 i := by
  have h0 := congrFun h ix0
  dsimp only [fn, fn_part1, fn_part2] at h0
  simp only [andi, IntOp.andi_eq_one] at h0
  obtain ⟨⟨⟨⟨⟨⟨e0, e1⟩, e2⟩, e3⟩, e4⟩, e5⟩, e6⟩ := h0
  exact ⟨real_of_all _ _ _ x0 _ _ e0, real_of_all _ _ _ x1 _ _ e1, real_of_all _ _ _ x2 _ _ e2,
    real_of_all _ _ _ x3 _ _ e3, real_of_all _ _ _ x4 _ _ e4, real_of_all _ _ _ x5 _ _ e5,
    deg_pos_of_all _ _ _ _ x1 _ _ e6⟩

end Cert.PreFacts

end
-- ==== Proof.Algebra.lean ====
import proofs.«111342_j55946243997874_2_alg».proof.Proof.Spec
import Mathlib.Data.EReal.Basic
import Mathlib.Algebra.BigOperators.Group.Finset.Basic
import Mathlib.Algebra.BigOperators.Group.Finset.Piecewise
import Mathlib.Algebra.BigOperators.Ring.Finset
import Mathlib.Order.BoundedOrder.Lattice
import Mathlib.Tactic.Ring

noncomputable section

namespace Cert.Spec

open Idealize.ShloMosaic Idealize.ShloMosaic.ValueIdx

variable (x : SX.Idx → EReal) (adj : SA.Idx → EReal) (w1 : SW1.Idx → EReal) (b1 : SB1.Idx → EReal)
  (w2 : SW2.Idx → EReal) (b2 : SB2.Idx → EReal)

theorem coe_sum {ι : Type} (s : Finset ι) (f : ι → ℝ) :
    ((∑ j ∈ s, f j : ℝ) : EReal) = ∑ j ∈ s, (f j : EReal) := by
  classical
  refine Finset.induction_on s ?_ ?_
  · rw [Finset.sum_empty, Finset.sum_empty, EReal.coe_zero]
  · intro j s hj ih
    rw [Finset.sum_insert hj, Finset.sum_insert hj, EReal.coe_add, ih]

theorem real_sum_mul {ι : Type} [Fintype ι] (u v : ι → EReal)
    (hu : ∀ j, ∃ r : ℝ, u j = (r : EReal)) (hv : ∀ j, ∃ r : ℝ, v j = (r : EReal)) :
    ∃ r : ℝ, ∑ j, u j * v j = (r : EReal) := by
  choose p hp using hu
  choose q hq using hv
  refine ⟨∑ j, p j * q j, ?_⟩
  rw [coe_sum]
  refine Finset.sum_congr rfl fun j _ => ?_
  rw [hp j, hq j, EReal.coe_mul]

theorem max_zero_real (z : EReal) (hz : ∃ r : ℝ, z = (r : EReal)) : ∃ r : ℝ, max z 0 = (r : EReal) := by
  obtain ⟨r, rfl⟩ := hz
  rcases le_total (r : EReal) 0 with h | h
  · exact ⟨0, by rw [max_eq_right h, EReal.coe_zero]⟩
  · exact ⟨r, max_eq_left h⟩

theorem eye_coe (i n : Fin 12288) : eye i n = (((if i = n then 1 else 0 : ℝ)) : EReal) := by
  unfold eye
  split_ifs
  · exact EReal.coe_one.symm
  · exact EReal.coe_zero.symm

theorem sum_eye (i : Fin 12288) : ∑ n : Fin 12288, eye i n = 1 := by
  unfold eye
  rw [Finset.sum_ite_eq]
  exact if_pos (Finset.mem_univ i)

theorem degR_eq_deg (i : Fin 12288) : degR adj i = deg adj i := by
  unfold degR deg
  rw [zero_add, Finset.sum_add_distrib, sum_eye]

theorem dinvR_eq_dinv (i : Fin 12288) : dinvR adj i = dinv adj i := by
  unfold dinvR dinv
  rw [degR_eq_deg]

theorem deg_real (hadj : ∀ j, ∃ r : ℝ, adj j = (r : EReal)) (i : Fin 12288) :
    ∃ r : ℝ, deg adj i = (r : EReal) := by
  choose a ha using hadj
  refine ⟨(∑ n : Fin 12288, a (ix2 i n)) + 1, ?_⟩
  unfold deg
  rw [EReal.coe_add, coe_sum, EReal.coe_one, Finset.sum_congr rfl fun n _ => ha (ix2 i n)]

theorem dinv_real (hadj : ∀ j, ∃ r : ℝ, adj j = (r : EReal)) (hpos : ∀ i : Fin 12288, 0 < deg adj i)
    (i : Fin 12288) : ∃ d : ℝ, dinv adj i = (d : EReal) := by
  obtain ⟨r, hr⟩ := deg_real adj hadj i
  have h0 : 0 < r := by
    have h := hpos i
    rw [hr] at h
    exact EReal.coe_pos.mp h
  refine ⟨(Real.sqrt r)⁻¹, ?_⟩
  unfold dinv
  rw [hr, Ideal.rsqrt_coe, if_neg (not_lt.mpr h0.le), if_neg h0.ne']

theorem real_agg (a d m : Fin 12288 → ℝ) (i : Fin 12288) :
    ∑ n : Fin 12288, ((a n + (if i = n then 1 else 0)) * d i * d n) * m n
      = d i * (∑ n : Fin 12288, a n * (m n * d n)) + (d i * d i) * m i := by
  have h : ∀ n : Fin 12288, ((a n + (if i = n then 1 else 0)) * d i * d n) * m n
      = d i * (a n * (m n * d n)) + (if i = n then d i * d n * m n else 0) := by
    intro n
    split_ifs <;> ring
  rw [Finset.sum_congr rfl (fun n _ => h n), Finset.sum_add_distrib, ← Finset.mul_sum, Finset.sum_ite_eq,
    if_pos (Finset.mem_univ i)]

section Agg

variable {w : ℕ} (M : Fin 12288 → Fin w → EReal) (b : Fin w → EReal)
  (a : SA.Idx → ℝ) (d : Fin 12288 → ℝ) (m : Fin 12288 → Fin w → ℝ) (β : Fin w → ℝ)

theorem agg_coe (ha : ∀ j, adj j = (a j : EReal)) (hd : ∀ i, dinv adj i = (d i : EReal))
    (hm : ∀ n c, M n c = (m n c : EReal)) (hβ : ∀ c, b c = (β c : EReal)) (i : Fin 12288) (c : Fin w) :
    agg adj M b i c
      = ((d i * (∑ n : Fin 12288, a (ix2 i n) * (m n c * d n)) + (d i * d i) * m i c + β c : ℝ) : EReal) := by
  unfold agg
  simp only [EReal.coe_add, EReal.coe_mul, coe_sum, ha, hd, hm, hβ]

theorem aggR_coe (ha : ∀ j, adj j = (a j : EReal)) (hd : ∀ i, dinv adj i = (d i : EReal))
    (hm : ∀ n c, M n c = (m n c : EReal)) (hβ : ∀ c, b c = (β c : EReal)) (i : Fin 12288) (c : Fin w) :
    aggR adj M b i c
      = (((∑ n : Fin 12288, ((a (ix2 i n) + (if i = n then 1 else 0)) * d i * d n) * m n c) + β c : ℝ) : EReal) := by
  unfold aggR norm
  simp only [EReal.coe_add, EReal.coe_mul, coe_sum, dinvR_eq_dinv, eye_coe, ha, hd, hm, hβ]

end Agg

/-- Where every entry is real and every inverse root of a degree is real, the two arrangements agree by distributivity. -/
theorem aggR_eq_agg {w : ℕ} (M : Fin 12288 → Fin w → EReal) (b : Fin w → EReal)
    (hadj : ∀ j, ∃ r : ℝ, adj j = (r : EReal)) (hpos : ∀ i : Fin 12288, 0 < deg adj i)
    (hM : ∀ n c, ∃ r : ℝ, M n c = (r : EReal)) (hb : ∀ c, ∃ r : ℝ, b c = (r : EReal))
    (i : Fin 12288) (c : Fin w) : aggR adj M b i c = agg adj M b i c := by
  choose d hd using dinv_real adj hadj hpos
  choose a ha using hadj
  choose m hm using hM
  choose β hβ using hb
  rw [aggR_coe adj M b a d m β ha hd hm hβ, agg_coe adj M b a d m β ha hd hm hβ]
  exact congrArg (fun t : ℝ => ((t + β c : ℝ) : EReal))
    (real_agg (fun n => a (ix2 i n)) d (fun n => m n c) i)

theorem agg_real {w : ℕ} (M : Fin 12288 → Fin w → EReal) (b : Fin w → EReal)
    (hadj : ∀ j, ∃ r : ℝ, adj j = (r : EReal)) (hpos : ∀ i : Fin 12288, 0 < deg adj i)
    (hM : ∀ n c, ∃ r : ℝ, M n c = (r : EReal)) (hb : ∀ c, ∃ r : ℝ, b c = (r : EReal))
    (i : Fin 12288) (c : Fin w) : ∃ r : ℝ, agg adj M b i c = (r : EReal) := by
  choose d hd using dinv_real adj hadj hpos
  choose a ha using hadj
  choose m hm using hM
  choose β hβ using hb
  exact ⟨_, agg_coe adj M b a d m β ha hd hm hβ i c⟩

section Stages

variable (hx : ∀ j, ∃ r : ℝ, x j = (r : EReal)) (hadj : ∀ j, ∃ r : ℝ, adj j = (r : EReal))
  (hw1 : ∀ j, ∃ r : ℝ, w1 j = (r : EReal)) (hb1 : ∀ j, ∃ r : ℝ, b1 j = (r : EReal))
  (hw2 : ∀ j, ∃ r : ℝ, w2 j = (r : EReal)) (hb2 : ∀ j, ∃ r : ℝ, b2 j = (r : EReal))
  (hpos : ∀ i : Fin 12288, 0 < deg adj i)

include hx hw1 in

theorem xw_real (i : Fin 12288) (c : Fin 16) : ∃ r : ℝ, xw x w1 i c = (r : EReal) :=
  real_sum_mul (fun f : Fin 512 => x (ix2 i f)) (fun f : Fin 512 => w1 (ix2 f c))
    (fun f => hx (ix2 i f)) (fun f => hw1 (ix2 f c))

include hx hadj hw1 hb1 hpos in

theorem hidR_eq_hid (i : Fin 12288) (c : Fin 16) : hidR x adj w1 b1 i c = hid x adj w1 b1 i c := by
  unfold hidR hid
  rw [aggR_eq_agg adj (xw x w1) (fun c => b1 (ix1 c)) hadj hpos (xw_real x w1 hx hw1) (fun c => hb1 (ix1 c))]

include hx hadj hw1 hb1 hpos in

theorem hid_real (i : Fin 12288) (c : Fin 16) : ∃ r : ℝ, hid x adj w1 b1 i c = (r : EReal) :=
  max_zero_real _
    (agg_real adj (xw x w1) (fun c => b1 (ix1 c)) hadj hpos (xw_real x w1 hx hw1) (fun c => hb1 (ix1 c)) i c)

include hx hadj hw1 hb1 hpos in

theorem hwR_eq_hw (i : Fin 12288) (c : Fin 40) : hwR x adj w1 b1 w2 i c = hw x adj w1 b1 w2 i c := by
  unfold hwR hw
  refine Finset.sum_congr rfl fun j _ => ?_
  rw [hidR_eq_hid x adj w1 b1 hx hadj hw1 hb1 hpos]

include hx hadj hw1 hb1 hw2 hpos in

theorem hw_real (i : Fin 12288) (c : Fin 40) : ∃ r : ℝ, hw x adj w1 b1 w2 i c = (r : EReal) :=
  real_sum_mul (fun j : Fin 16 => hid x adj w1 b1 i j) (fun j : Fin 16 => w2 (ix2 j c))
    (fun j => hid_real x adj w1 b1 hx hadj hw1 hb1 hpos i j) (fun j => hw2 (ix2 j c))

include hx hadj hw1 hb1 hw2 hb2 hpos in

theorem logitsR_eq_logits (i : Fin 12288) (c : Fin 40) :
    logitsR x adj w1 b1 w2 b2 i c = logits x adj w1 b1 w2 b2 i c := by
  have h : hwR x adj w1 b1 w2 = hw x adj w1 b1 w2 :=
    funext fun i => funext fun c => hwR_eq_hw x adj w1 b1 w2 hx hadj hw1 hb1 hpos i c
  unfold logitsR logits
  rw [h]
  exact aggR_eq_agg adj (hw x adj w1 b1 w2) (fun c => b2 (ix1 c)) hadj hpos
    (hw_real x adj w1 b1 w2 hx hadj hw1 hb1 hw2 hpos) (fun c => hb2 (ix1 c)) i c

end Stages

theorem lsmR_eq_lsm (v : Fin 40 → EReal) (c : Fin 40) : lsmR v c = lsm v c := by
  unfold lsmR lsm
  rw [max_bot_left, zero_add]

/-- The two arrangements of the whole network agree on real arguments with positive degrees. -/
theorem outR_eq_out (x : SX.Idx → EReal) (adj : SA.Idx → EReal) (w1 : SW1.Idx → EReal) (b1 : SB1.Idx → EReal) (w2 : SW2.Idx → EReal) (b2 : SB2.Idx → EReal)
    (hx : ∀ j, ∃ r : ℝ, x j = (r : EReal)) (hadj : ∀ j, ∃ r : ℝ, adj j = (r : EReal)) (hw1 : ∀ j, ∃ r : ℝ, w1 j = (r : EReal))
    (hb1 : ∀ j, ∃ r : ℝ, b1 j = (r : EReal)) (hw2 : ∀ j, ∃ r : ℝ, w2 j = (r : EReal)) (hb2 : ∀ j, ∃ r : ℝ, b2 j = (r : EReal))
    (hpos : ∀ i : Fin 12288, 0 < deg adj i) :
    outR x adj w1 b1 w2 b2 = out x adj w1 b1 w2 b2 := by
  funext y
  have h : (fun c => logitsR x adj w1 b1 w2 b2 (y 0) c) = fun c => logits x adj w1 b1 w2 b2 (y 0) c :=
    funext fun c => logitsR_eq_logits x adj w1 b1 w2 b2 hx hadj hw1 hb1 hw2 hb2 hpos (y 0) c
  exact (congrArg (fun v => lsmR v (y 1)) h).trans (lsmR_eq_lsm _ (y 1))

end Cert.Spec

end
-- ==== Proof.RefSide.lean ====
import proofs.«111342_j55946243997874_2_alg».proof.Defs
import proofs.«111342_j55946243997874_2_alg».proof.Proof.Gen.ReferenceIdeal
import proofs.«111342_j55946243997874_2_alg».proof.Proof.Gen.Pre_finite_inputs
import proofs.«111342_j55946243997874_2_alg».proof.Proof.RefBridge
import proofs.«111342_j55946243997874_2_alg».proof.Proof.PreFacts
import proofs.«111342_j55946243997874_2_alg».proof.Proof.Algebra

noncomputable section

namespace Cert.Proof.Parts

open Idealize.ShloMosaic Idealize.ShloMosaic.TcCoe Idealize.SL.Sem

theorem frame_ri : Cert.frame_ReferenceIdeal := fun m ρ _ =>
  (θ_run (Cert.ReferenceIdeal.defs (F := Ideal)) _ _).mono (fun _ h c => (h c).2) (Cert.RefBridge.run_outR m ρ)

abbrev kx (m : (ℓ : Loc Cert.KernelIdeal.nD Cert.KernelIdeal.τ Cert.KernelIdeal.sig) → Buf (Elt Ideal) ℓ) (c : Dev Cert.KernelIdeal.nD) :=
  Cert.Spec.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

theorem ref_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v26) = kx m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  refine (θ_run (Cert.ReferenceIdeal.defs (F := Ideal)) _ _).mono (fun _ h c => ⟨(h c).1.trans ?_, (h c).2⟩) (Cert.RefBridge.run_outR m' ρ')
  obtain ⟨h0, h1, h2, h3, h4, h5⟩ := hagree c
  obtain ⟨f0, f1, f2, f3, f4, f5, hpos⟩ := Cert.PreFacts.of_pre _ _ _ _ _ _ (hpre c)
  rw [h0, h1, h2, h3, h4, h5]
  exact Cert.Spec.outR_eq_out _ _ _ _ _ _ f0 f1 f2 f3 f4 f5 hpos

end Cert.Proof.Parts

end
-- ==== Proof.KernelSide.lean ====
import proofs.«111342_j55946243997874_2_alg».proof.Defs
import proofs.«111342_j55946243997874_2_alg».proof.Proof.Gen.Kernel
import proofs.«111342_j55946243997874_2_alg».proof.Proof.Gen.KernelIdeal
import proofs.«111342_j55946243997874_2_alg».proof.Proof.Gen.Pre_finite_inputs
import proofs.«111342_j55946243997874_2_alg».proof.Proof.SameText
import proofs.«111342_j55946243997874_2_alg».proof.Proof.KI.Run
import proofs.«111342_j55946243997874_2_alg».proof.Proof.Val.Chain
import proofs.«111342_j55946243997874_2_alg».proof.Proof.RefSide

noncomputable section

namespace Cert.Proof.Parts

open Idealize.ShloMosaic Idealize.ShloMosaic.TcCoe Idealize.SL.Sem
open Cert.KernelIdeal Cert.KernelIdeal.Gen Cert.KernelIdeal.Hand

/-- At every float instance the program runs to the end and no item of it writes an argument array. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := F)) _ _).mono (fun _ h c =>
    ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c)⟩)
    (run_all (F := F) m ρ)

theorem frame_ki : Cert.frame_KernelIdeal := fun m ρ _ => frame_any m ρ

/-- The word-level program is the same text, so its frame is `frame_any` read at the word-level instance. -/
theorem frame_k : Cert.frame_Kernel := fun m ρ _ => by
  rw [defs_same]
  exact frame_any (F := Bits) m ρ

/-- Over the extended reals the run also ends with the result array at the network of the launch arrays. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = kx m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
    ⟨(h c _ (mem_uc main_v6 (by decide))).trans (Cert.KernelIdeal.HandVal.kernel_out m c),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c)⟩)
    (run_all (F := Ideal) m ρ)

theorem algebraic : Cert.algebraic_KernelIdeal_ReferenceIdeal := fun m ρ m' ρ' hpre hagree =>
  ⟨fun c => kx m c, kernel_run m ρ, ref_run m m' ρ' hpre hagree⟩

end Cert.Proof.Parts

end
-- ==== Proof.lean ====
import proofs.«111342_j55946243997874_2_alg».proof.Defs
import proofs.«111342_j55946243997874_2_alg».proof.Proof.Gen.Kernel
import proofs.«111342_j55946243997874_2_alg».proof.Proof.Gen.KernelIdeal
import proofs.«111342_j55946243997874_2_alg».proof.Proof.Gen.ReferenceIdeal
import proofs.«111342_j55946243997874_2_alg».proof.Proof.Gen.Pre_finite_inputs
import proofs.«111342_j55946243997874_2_alg».proof.Proof.KernelSide

noncomputable section

namespace Cert.Proof

open Idealize.ShloMosaic Idealize.SL.Sem

/-- A two-layer graph convolution in five kernel calls against log_softmax (N · relu (N · (x · W1) + b1) · W2 + b2),
    N = D^(-1/2) (A + I) D^(-1/2): equal over the extended reals where every entry is real and every degree positive. -/
theorem claim : Cert.Claim :=
  ⟨Cert.Kernel.Gen.facts, Cert.KernelIdeal.Gen.facts, Cert.ReferenceIdeal.Gen.facts, Cert.Pre_finite_inputs.Gen.facts,
    Cert.Proof.Parts.frame_k, Cert.Proof.Parts.frame_ki, Cert.Proof.Parts.frame_ri, trivial, Cert.Proof.Parts.algebraic⟩

end Cert.Proof

end
